-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S524288 : Shape := ⟨1, ![524288]⟩
abbrev S128x256 : Shape := ⟨2, ![128, 256]⟩
abbrev S256 : Shape := ⟨1, ![256]⟩
abbrev S256x256 : Shape := ⟨2, ![256, 256]⟩
abbrev S8192x256 : Shape := ⟨2, ![8192, 256]⟩
abbrev S256x1 : Shape := ⟨2, ![256, 1]⟩
abbrev S1 : Shape := ⟨1, ![1]⟩
abbrev S256x8 : Shape := ⟨2, ![256, 8]⟩
abbrev S8 : Shape := ⟨1, ![8]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S524288 : S_.BroadcastsInDim S524288 (![] : Fin 0 → Fin S524288.rank)
  reducesTo_S524288_S_d0 : S524288.ReducesTo [0] S_

variable [Facts]

def fn_part7 {F : FTy → Type} [FloatOps F] (main_arg4 : IVec S524288 32) (main_arg27 : FVec F S8 .f32) (main_v118 : IVec S_ 1) (main_v119 : FVec F S256x8 .f32) : IVec S_ 1 :=
  let main_cst_46 : FVec F S_ .f32 := constant S_ .f32 0x7F800000#32
  let main_v120 : FVec F S256x8 .f32 := broadcastInDim S256x8 ![] bcast_S_S256x8 main_cst_46
  let main_v121 : IVec S256x8 1 := cmpf .olt main_v119 main_v120
  let main_c_47 : IVec S_ 1 := constantI S_ 1 1#1
  let main_v122 : IVec S_ 1 := (fun x v => Host.reduce IntOp.andi x v reducesTo_S256x8_S_d0_1 h_S_) main_v121 main_c_47
  let main_v123 : IVec S_ 1 := andi main_v118 main_v122
  let main_v124 : FVec F S8 .f32 := Host.absf main_arg27
  let main_cst_48 : FVec F S_ .f32 := constant S_ .f32 0x7F800000#32
  let main_v125 : FVec F S8 .f32 := broadcastInDim S8 ![] bcast_S_S8 main_cst_48
  let main_v126 : IVec S8 1 := cmpf .olt main_v124 main_v125
  let main_c_49 : IVec S_ 1 := constantI S_ 1 1#1
  let main_v127 : IVec S_ 1 := (fun x v => Host.reduce IntOp.andi x v reducesTo_S8_S_d0 h_S_) main_v126 main_c_49
  let main_v128 : IVec S_ 1 := andi main_v123 main_v127
  let main_c_50 : IVec S_ 32 := constantI S_ 32 0#32
  let main_v129 : IVec S524288 32 := broadcastInDim S524288 ![] bcast_S_S524288 main_c_50
  let main_v130 : IVec S524288 1 := cmpi .sge main_arg4 main_v129
  let main_c_51 : IVec S_ 32 := constantI S_ 32 65536#32
  let main_v131 : IVec S524288 32 := broadcastInDim S524288 ![] bcast_S_S524288 main_c_51
  let main_v132 : IVec S524288 1 := cmpi .slt main_arg4 main_v131
  let main_v133 : IVec S524288 1 := andi main_v130 main_v132
  let main_c_52 : IVec S_ 1 := constantI S_ 1 1#1
  let main_v134 : IVec S_ 1 := (fun x v => Host.reduce IntOp.andi x v reducesTo_S524288_S_d0 h_S_) main_v133 main_c_52
  let main_v135 : IVec S_ 1 := andi main_v128 main_v134
  main_v135

def fn_part6 {F : FTy → Type} [FloatOps F] (main_arg4 : IVec S524288 32) (main_arg23 : FVec F S256 .f32) (main_arg24 : FVec F S256x256 .f32) (main_arg25 : FVec F S256 .f32) (main_arg26 : FVec F S256x8 .f32) (main_arg27 : FVec F S8 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg24
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x8 .f32 := Host.absf main_arg26
  fn_part7 (F := F) main_arg4 main_arg27 main_v118 main_v119

def fn_part5 {F : FTy → Type} [FloatOps F] (main_arg4 : IVec S524288 32) (main_arg20 : FVec F S256x1 .f32) (main_arg21 : FVec F S1 .f32) (main_arg22 : FVec F S256 .f32) (main_arg23 : FVec F S256 .f32) (main_arg24 : FVec F S256x256 .f32) (main_arg25 : FVec F S256 .f32) (main_arg26 : FVec F S256x8 .f32) (main_arg27 : FVec F S8 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg20
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg4 main_arg23 main_arg24 main_arg25 main_arg26 main_arg27 main_v98 main_v101 main_c_39

def fn_part4 {F : FTy → Type} [FloatOps F] (main_arg4 : IVec S524288 32) (main_arg16 : FVec F S256x256 .f32) (main_arg17 : FVec F S256 .f32) (main_arg18 : FVec F S8192x256 .f32) (main_arg19 : FVec F S256 .f32) (main_arg20 : FVec F S256x1 .f32) (main_arg21 : FVec F S1 .f32) (main_arg22 : FVec F S256 .f32) (main_arg23 : FVec F S256 .f32) (main_arg24 : FVec F S256x256 .f32) (main_arg25 : FVec F S256 .f32) (main_arg26 : FVec F S256x8 .f32) (main_arg27 : FVec F S8 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S8192x256 .f32 := Host.absf main_arg18
  let main_cst_30 : FVec F S_ .f32 := constant S_ .f32 0x7F800000#32
  let main_v80 : FVec F S8192x256 .f32 := broadcastInDim S8192x256 ![] bcast_S_S8192x256 main_cst_30
  let main_v81 : IVec S8192x256 1 := cmpf .olt main_v79 main_v80
  let main_c_31 : IVec S_ 1 := constantI S_ 1 1#1
  let main_v82 : IVec S_ 1 := (fun x v => Host.reduce IntOp.andi x v reducesTo_S8192x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg4 main_arg20 main_arg21 main_arg22 main_arg23 main_arg24 main_arg25 main_arg26 main_arg27 main_v83 main_v84 main_cst_32

def fn_part3 {F : FTy → Type} [FloatOps F] (main_arg4 : IVec S524288 32) (main_arg13 : FVec F S256x256 .f32) (main_arg14 : FVec F S256 .f32) (main_arg15 : FVec F S256x256 .f32) (main_arg16 : FVec F S256x256 .f32) (main_arg17 : FVec F S256 .f32) (main_arg18 : FVec F S8192x256 .f32) (main_arg19 : FVec F S256 .f32) (main_arg20 : FVec F S256x1 .f32) (main_arg21 : FVec F S1 .f32) (main_arg22 : FVec F S256 .f32) (main_arg23 : FVec F S256 .f32) (main_arg24 : FVec F S256x256 .f32) (main_arg25 : FVec F S256 .f32) (main_arg26 : FVec F S256x8 .f32) (main_arg27 : FVec F S8 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg4 main_arg16 main_arg17 main_arg18 main_arg19 main_arg20 main_arg21 main_arg22 main_arg23 main_arg24 main_arg25 main_arg26 main_arg27 main_v63 main_v67

def fn_part2 {F : FTy → Type} [FloatOps F] (main_arg4 : IVec S524288 32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S8192x256 .f32) (main_arg19 : FVec F S256 .f32) (main_arg20 : FVec F S256x1 .f32) (main_arg21 : FVec F S1 .f32) (main_arg22 : FVec F S256 .f32) (main_arg23 : FVec F S256 .f32) (main_arg24 : FVec F S256x256 .f32) (main_arg25 : FVec F S256 .f32) (main_arg26 : FVec F S256x8 .f32) (main_arg27 : FVec F S8 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg4 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : IVec S524288 32) (main_arg6 : FVec F S128x256 .f32) (main_arg7 : FVec F S128x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S8192x256 .f32) (main_arg19 : FVec F S256 .f32) (main_arg20 : FVec F S256x1 .f32) (main_arg21 : FVec F S1 .f32) (main_arg22 : FVec F S256 .f32) (main_arg23 : FVec F S256 .f32) (main_arg24 : FVec F S256x256 .f32) (main_arg25 : FVec F S256 .f32) (main_arg26 : FVec F S256x8 .f32) (main_arg27 : FVec F S8 .f32) (main_v13 : IVec S_ 1) (main_v16 : IVec S65536x32 1) : IVec S_ 1 :=
  let main_c_5 : IVec S_ 1 := constantI S_ 1 1#1
  let main_v17 : IVec S_ 1 := (fun x v => Host.reduce IntOp.andi x v reducesTo_S65536x32_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg4 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S65536x32 .f32) (main_arg1 : FVec F S65536x32 .f32) (main_arg2 : FVec F S65536x32 .f32) (main_arg3 : FVec F S65536x32 .f32) (main_arg4 : IVec S524288 32) (main_arg5 : IVec S524288 32) (main_arg6 : FVec F S128x256 .f32) (main_arg7 : FVec F S128x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S8192x256 .f32) (main_arg19 : FVec F S256 .f32) (main_arg20 : FVec F S256x1 .f32) (main_arg21 : FVec F S1 .f32) (main_arg22 : FVec F S256 .f32) (main_arg23 : FVec F S256 .f32) (main_arg24 : FVec F S256x256 .f32) (main_arg25 : FVec F S256 .f32) (main_arg26 : FVec F S256x8 .f32) (main_arg27 : FVec F S8 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S65536x32 .f32 := Host.absf main_arg2
  let main_cst_2 : FVec F S_ .f32 := constant S_ .f32 0x7F800000#32
  let main_v10 : FVec F S65536x32 .f32 := broadcastInDim S65536x32 ![] bcast_S_S65536x32 main_cst_2
  let main_v11 : IVec S65536x32 1 := cmpf .olt main_v9 main_v10
  let main_c_3 : IVec S_ 1 := constantI S_ 1 1#1
  let main_v12 : IVec S_ 1 := (fun x v => Host.reduce IntOp.andi x v reducesTo_S65536x32_S_d0_1 h_S_) main_v11 main_c_3
  let main_v13 : IVec S_ 1 := andi main_v8 main_v12
  let main_v14 : FVec F S65536x32 .f32 := Host.absf main_arg3
  let main_cst_4 : FVec F S_ .f32 := constant S_ .f32 0x7F800000#32
  let main_v15 : FVec F S65536x32 .f32 := broadcastInDim S65536x32 ![] bcast_S_S65536x32 main_cst_4
  let main_v16 : IVec S65536x32 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S65536x32 : Shape := ⟨2, ![65536, 32]⟩
abbrev S524288 : Shape := ⟨1, ![524288]⟩
abbrev S128x256 : Shape := ⟨2, ![128, 256]⟩
abbrev S256 : Shape := ⟨1, ![256]⟩
abbrev S256x256 : Shape := ⟨2, ![256, 256]⟩
abbrev S8192x256 : Shape := ⟨2, ![8192, 256]⟩
abbrev S256x1 : Shape := ⟨2, ![256, 1]⟩
abbrev S1 : Shape := ⟨1, ![1]⟩
abbrev S256x8 : Shape := ⟨2, ![256, 8]⟩
abbrev S8 : Shape := ⟨1, ![8]⟩
abbrev S65536x128 : Shape := ⟨2, ![65536, 128]⟩
abbrev S_ : Shape := ⟨0, ![]⟩
abbrev S65536 : Shape := ⟨1, ![65536]⟩
abbrev S524288x1 : Shape := ⟨2, ![524288, 1]⟩
abbrev S65536x1 : Shape := ⟨2, ![65536, 1]⟩
abbrev S1x1 : Shape := ⟨2, ![1, 1]⟩
abbrev S524288x128 : Shape := ⟨2, ![524288, 128]⟩
abbrev S1x256 : Shape := ⟨2, ![1, 256]⟩
abbrev S65536x256 : Shape := ⟨2, ![65536, 256]⟩
abbrev S4096x128 : Shape := ⟨2, ![4096, 128]⟩
abbrev S4096x256 : Shape := ⟨2, ![4096, 256]⟩
abbrev S524288x256 : Shape := ⟨2, ![524288, 256]⟩
abbrev S8x256x8192 : Shape := ⟨3, ![8, 256, 8192]⟩
abbrev S8x1x256 : Shape := ⟨3, ![8, 1, 256]⟩
abbrev S1x256x8192 : Shape := ⟨3, ![1, 256, 8192]⟩
abbrev S1x1x256 : Shape := ⟨3, ![1, 1, 256]⟩
abbrev S256x8192 : Shape := ⟨2, ![256, 8192]⟩
abbrev S8x256 : Shape := ⟨2, ![8, 256]⟩
abbrev S8x8 : Shape := ⟨2, ![8, 8]⟩
abbrev S1x8 : Shape := ⟨2, ![1, 8]⟩

abbrev nBuf : Space → Nat
  | .hbm => 229
  | .vmem => 44
  | .smem => 0
  | _ => 0

abbrev hbmTy0_0 (i : Nat) : BufTy := match i % 128 with
  | 0 => ⟨S65536x32, .f32⟩
  | 1 => ⟨S65536x32, .f32⟩
  | 2 => ⟨S65536x32, .f32⟩
  | 3 => ⟨S65536x32, .f32⟩
  | 4 => ⟨S524288, .i32⟩
  | 5 => ⟨S524288, .i32⟩
  | 6 => ⟨S128x256, .f32⟩
  | 7 => ⟨S128x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256x256, .f32⟩
  | 14 => ⟨S256, .f32⟩
  | 15 => ⟨S256x256, .f32⟩
  | 16 => ⟨S256x256, .f32⟩
  | 17 => ⟨S256, .f32⟩
  | 18 => ⟨S8192x256, .f32⟩
  | 19 => ⟨S256, .f32⟩
  | 20 => ⟨S256x1, .f32⟩
  | 21 => ⟨S1, .f32⟩
  | 22 => ⟨S256, .f32⟩
  | 23 => ⟨S256, .f32⟩
  | 24 => ⟨S256x256, .f32⟩
  | 25 => ⟨S256, .f32⟩
  | 26 => ⟨S256x8, .f32⟩
  | 27 => ⟨S8, .f32⟩
  | 28 => ⟨S65536x128, .f32⟩
  | 29 => ⟨S_, .f32⟩
  | 30 => ⟨S524288, .f32⟩
  | 31 => ⟨S_, .f32⟩
  | 32 => ⟨S65536, .f32⟩
  | 33 => ⟨S524288x1, .i32⟩
  | 34 => ⟨S65536, .f32⟩
  | 35 => ⟨S_, .f32⟩
  | 36 => ⟨S65536, .f32⟩
  | 37 => ⟨S65536, .f32⟩
  | 38 => ⟨S_, .f32⟩
  | 39 => ⟨S65536, .f32⟩
  | 40 => ⟨S65536, .f32⟩
  | 41 => ⟨S65536x1, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S1, .i32⟩
  | 51 => ⟨S_, .i32⟩
  | 52 => ⟨S524288x1, .i32⟩
  | 53 => ⟨S524288x1, .i1⟩
  | 54 => ⟨S1x1, .i32⟩
  | 55 => ⟨S524288x1, .i32⟩
  | 56 => ⟨S524288x1, .i1⟩
  | 57 => ⟨S524288x1, .i1⟩
  | 58 => ⟨S_, .i1⟩
  | 59 => ⟨S524288, .i1⟩
  | 60 => ⟨S524288x128, .f32⟩
  | 61 => ⟨S524288x128, .i1⟩
  | 62 => ⟨S_, .f32⟩
  | 63 => ⟨S524288x128, .f32⟩
  | 64 => ⟨S524288x128, .f32⟩
  | 65 => ⟨S_, .f32⟩
  | 66 => ⟨S65536x128, .f32⟩
  | 67 => ⟨S524288x1, .i32⟩
  | 68 => ⟨S65536x128, .f32⟩
  | 69 => ⟨S65536x128, .f32⟩
  | 70 => ⟨S65536x128, .f32⟩
  | 71 => ⟨S1x256, .f32⟩
  | 72 => ⟨S65536x256, .f32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S1, .i32⟩
  | 82 => ⟨S_, .i32⟩
  | 83 => ⟨S524288x1, .i32⟩
  | 84 => ⟨S524288x1, .i1⟩
  | 85 => ⟨S1x1, .i32⟩
  | 86 => ⟨S524288x1, .i32⟩
  | 87 => ⟨S524288x1, .i1⟩
  | 88 => ⟨S524288x1, .i1⟩
  | 89 => ⟨S_, .i1⟩
  | 90 => ⟨S524288, .i1⟩
  | 91 => ⟨S524288x256, .f32⟩
  | 92 => ⟨S524288x256, .i1⟩
  | 93 => ⟨S_, .f32⟩
  | 94 => ⟨S524288x256, .f32⟩
  | 95 => ⟨S524288x256, .f32⟩
  | 96 => ⟨S_, .f32⟩
  | 97 => ⟨S65536x256, .f32⟩
  | 98 => ⟨S524288x1, .i32⟩
  | 99 => ⟨S65536x256, .f32⟩
  | 100 => ⟨S65536x256, .f32⟩
  | 101 => ⟨S65536x256, .f32⟩
  | 102 => ⟨S1x256, .f32⟩
  | 103 => ⟨S65536x256, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S1, .i32⟩
  | 113 => ⟨S_, .i32⟩
  | 114 => ⟨S524288x1, .i32⟩
  | 115 => ⟨S524288x1, .i1⟩
  | 116 => ⟨S1x1, .i32⟩
  | 117 => ⟨S524288x1, .i32⟩
  | 118 => ⟨S524288x1, .i1⟩
  | 119 => ⟨S524288x1, .i1⟩
  | 120 => ⟨S_, .i1⟩
  | 121 => ⟨S524288, .i1⟩
  | 122 => ⟨S524288x256, .f32⟩
  | 123 => ⟨S524288x256, .i1⟩
  | 124 => ⟨S_, .f32⟩
  | 125 => ⟨S524288x256, .f32⟩
  | 126 => ⟨S524288x256, .f32⟩
  | 127 => ⟨S_, .f32⟩
  | _ => ⟨S65536x32, .f32⟩

abbrev hbmTy0_1 (i : Nat) : BufTy := match i % 128 with
  | 0 => ⟨S65536x256, .f32⟩
  | 1 => ⟨S524288x1, .i32⟩
  | 2 => ⟨S65536x256, .f32⟩
  | 3 => ⟨S65536x256, .f32⟩
  | 4 => ⟨S65536x256, .f32⟩
  | 5 => ⟨S1x256, .f32⟩
  | 6 => ⟨S65536x256, .f32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S524288x1, .i32⟩
  | 15 => ⟨S1, .i32⟩
  | 16 => ⟨S_, .i32⟩
  | 17 => ⟨S524288x1, .i32⟩
  | 18 => ⟨S524288x1, .i1⟩
  | 19 => ⟨S1x1, .i32⟩
  | 20 => ⟨S524288x1, .i32⟩
  | 21 => ⟨S524288x1, .i1⟩
  | 22 => ⟨S524288x1, .i1⟩
  | 23 => ⟨S_, .i1⟩
  | 24 => ⟨S524288, .i1⟩
  | 25 => ⟨S524288x256, .f32⟩
  | 26 => ⟨S524288x256, .i1⟩
  | 27 => ⟨S_, .f32⟩
  | 28 => ⟨S524288x256, .f32⟩
  | 29 => ⟨S524288x256, .f32⟩
  | 30 => ⟨S_, .f32⟩
  | 31 => ⟨S65536x256, .f32⟩
  | 32 => ⟨S524288x1, .i32⟩
  | 33 => ⟨S65536x256, .f32⟩
  | 34 => ⟨S65536x256, .f32⟩
  | 35 => ⟨S65536x256, .f32⟩
  | 36 => ⟨S1x256, .f32⟩
  | 37 => ⟨S65536x256, .f32⟩
  | 38 => ⟨S8x256x8192, .f32⟩
  | 39 => ⟨S1x256, .f32⟩
  | 40 => ⟨S1x1, .f32⟩
  | 41 => ⟨S8x1x256, .f32⟩
  | 42 => ⟨S8x256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S8x256, .f32⟩
  | 56 => ⟨S8x256, .f32⟩
  | 57 => ⟨S8x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S8x256, .f32⟩
  | 73 => ⟨S8x256, .f32⟩
  | 74 => ⟨S_, .f32⟩
  | 75 => ⟨S256, .f32⟩
  | 76 => ⟨S256, .f32⟩
  | 77 => ⟨S256, .f32⟩
  | 78 => ⟨S1x256, .f32⟩
  | 79 => ⟨S8x256, .f32⟩
  | 80 => ⟨S8x256, .f32⟩
  | 81 => ⟨S1x256, .f32⟩
  | 82 => ⟨S8x256, .f32⟩
  | 83 => ⟨S8x256, .f32⟩
  | 84 => ⟨S1x256, .f32⟩
  | 85 => ⟨S8x256, .f32⟩
  | 86 => ⟨S8x256, .f32⟩
  | 87 => ⟨S_, .f32⟩
  | 88 => ⟨S8x256, .f32⟩
  | 89 => ⟨S8x256, .f32⟩
  | 90 => ⟨S8x256, .f32⟩
  | 91 => ⟨S1x256, .f32⟩
  | 92 => ⟨S8x256, .f32⟩
  | 93 => ⟨S8x256, .f32⟩
  | 94 => ⟨S_, .f32⟩
  | 95 => ⟨S8x256, .f32⟩
  | 96 => ⟨S8x256, .f32⟩
  | 97 => ⟨S8x8, .f32⟩
  | 98 => ⟨S1x8, .f32⟩
  | 99 => ⟨S8x8, .f32⟩
  | 100 => ⟨S8x8, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | .local _ .vmem, ⟨21, _⟩ => ⟨S4096x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S4096x256, .f32⟩
  | .local _ .vmem, ⟨26, _⟩ => ⟨S4096x256, .f32⟩
  | .local _ .vmem, ⟨27, _⟩ => ⟨S4096x256, .f32⟩
  | .local _ .vmem, ⟨28, _⟩ => ⟨S4096x256, .f32⟩
  | .local _ .vmem, ⟨29, _⟩ => ⟨S4096x256, .f32⟩
  | .local _ .vmem, ⟨30, _⟩ => ⟨S4096x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S4096x256, .f32⟩
  | .local _ .vmem, ⟨35, _⟩ => ⟨S4096x256, .f32⟩
  | .local _ .vmem, ⟨36, _⟩ => ⟨S1x256x8192, .f32⟩
  | .local _ .vmem, ⟨37, _⟩ => ⟨S1x256x8192, .f32⟩
  | .local _ .vmem, ⟨38, _⟩ => ⟨S8192x256, .f32⟩
  | .local _ .vmem, ⟨39, _⟩ => ⟨S1x256, .f32⟩
  | .local _ .vmem, ⟨40, _⟩ => ⟨S256x1, .f32⟩
  | .local _ .vmem, ⟨41, _⟩ => ⟨S1x1, .f32⟩
  | .local _ .vmem, ⟨42, _⟩ => ⟨S1x1x256, .f32⟩
  | .local _ .vmem, ⟨43, _⟩ => ⟨S1x1x256, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v10 : Ref sig .tc := ⟨.hbm, 64, rfl⟩
abbrev main_cst_3 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v18 : Ref sig .tc := ⟨.hbm, 95, rfl⟩
abbrev main_cst_4 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v26 : Ref sig .tc := ⟨.hbm, 126, rfl⟩
abbrev main_cst_5 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v34 : Ref sig .tc := ⟨.hbm, 157, rfl⟩
abbrev main_cst_6 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_cst_7 : Ref sig .tc := ⟨.hbm, 171, rfl⟩
abbrev main_v47 : Ref sig .tc := ⟨.hbm, 172, rfl⟩
abbrev main_cst_8 : Ref sig .tc := ⟨.hbm, 173, rfl⟩
abbrev main_v48 : Ref sig .tc := ⟨.hbm, 174, rfl⟩
abbrev main_v49 : Ref sig .tc := ⟨.hbm, 175, rfl⟩
abbrev main_c : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_cst_0 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_v7 : Ref sig .tc := ⟨.hbm, 186, rfl⟩
abbrev main_call4_cst_1 : Ref sig .tc := ⟨.hbm, 187, rfl⟩
abbrev main_call4_v8 : Ref sig .tc := ⟨.hbm, 188, rfl⟩
abbrev main_call4_cst_2 : Ref sig .tc := ⟨.hbm, 189, rfl⟩
abbrev main_call4_v9 : Ref sig .tc := ⟨.hbm, 190, rfl⟩
abbrev main_call4_v10 : Ref sig .tc := ⟨.hbm, 191, rfl⟩
abbrev main_call4_v11 : Ref sig .tc := ⟨.hbm, 192, rfl⟩
abbrev main_call4_cst_3 : Ref sig .tc := ⟨.hbm, 193, rfl⟩
abbrev main_call4_v12 : Ref sig .tc := ⟨.hbm, 194, rfl⟩
abbrev main_call4_cst_4 : Ref sig .tc := ⟨.hbm, 195, rfl⟩
abbrev main_call4_call0_v0 : Ref sig .tc := ⟨.hbm, 196, rfl⟩
abbrev main_call4_call0_v1 : Ref sig .tc := ⟨.hbm, 197, rfl⟩
abbrev main_v50 : Ref sig .tc := ⟨.hbm, 198, rfl⟩
abbrev main_v51 : Ref sig .tc := ⟨.hbm, 199, rfl⟩
abbrev main_v52 : Ref sig .tc := ⟨.hbm, 200, rfl⟩
abbrev main_v53 : Ref sig .tc := ⟨.hbm, 201, rfl⟩
abbrev main_cst_9 : Ref sig .tc := ⟨.hbm, 202, rfl⟩
abbrev main_v54 : Ref sig .tc := ⟨.hbm, 203, rfl⟩
abbrev main_v55 : Ref sig .tc := ⟨.hbm, 204, rfl⟩
abbrev main_v56 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩
abbrev main_v60 : Ref sig .tc := ⟨.hbm, 209, rfl⟩
abbrev main_v61 : Ref sig .tc := ⟨.hbm, 210, rfl⟩
abbrev main_v62 : Ref sig .tc := ⟨.hbm, 211, rfl⟩
abbrev main_v63 : Ref sig .tc := ⟨.hbm, 212, rfl⟩
abbrev main_v64 : Ref sig .tc := ⟨.hbm, 213, rfl⟩
abbrev main_v65 : Ref sig .tc := ⟨.hbm, 214, rfl⟩
abbrev main_call5_cst : Ref sig .tc := ⟨.hbm, 215, rfl⟩
abbrev main_call5_v0 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩
abbrev main_v70 : Ref sig .tc := ⟨.hbm, 221, rfl⟩
abbrev main_call6_cst : Ref sig .tc := ⟨.hbm, 222, rfl⟩
abbrev main_call6_v0 : Ref sig .tc := ⟨.hbm, 223, rfl⟩
abbrev main_v71 : Ref sig .tc := ⟨.hbm, 224, rfl⟩
abbrev main_v72 : Ref sig .tc := ⟨.hbm, 225, rfl⟩
abbrev main_v73 : Ref sig .tc := ⟨.hbm, 226, rfl⟩
abbrev main_v74 : Ref sig .tc := ⟨.hbm, 227, rfl⟩
abbrev main_v75 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x1x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  concatenates_S65536x32_S65536x32_S65536x32_S65536x32_S65536x128_d1 : Shape.Concatenates [S65536x32, S65536x32, S65536x32, S65536x32] S65536x128 1
  bcast_S_S524288 : S_.BroadcastsInDim S524288 (![] : Fin 0 → Fin S524288.rank)
  bcast_S_S65536 : S_.BroadcastsInDim S65536 (![] : Fin 0 → Fin S65536.rank)
  bcast_S524288_S524288x1_0 : S524288.BroadcastsInDim S524288x1 (![0] : Fin 1 → Fin S524288x1.rank)
  bcast_S65536_S65536x1_0 : S65536.BroadcastsInDim S65536x1 (![0] : Fin 1 → Fin S65536x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  bcast_S_S65536x128 : S_.BroadcastsInDim S65536x128 (![] : Fin 0 → Fin S65536x128.rank)
  bcast_S65536x1_S65536x128_0_1 : S65536x1.BroadcastsInDim S65536x128 (![0, 1] : Fin 2 → Fin S65536x128.rank)
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S524288_S524288x256_0 : S524288.BroadcastsInDim S524288x256 (![0] : Fin 1 → Fin S524288x256.rank)
  bcast_S_S524288x256 : S_.BroadcastsInDim S524288x256 (![] : Fin 0 → Fin S524288x256.rank)
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S65536x256_S8x256x8192 : S65536x256.ShapeCasts S8x256x8192
  shapeCasts_S1_S1x1 : S1.ShapeCasts S1x1
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S8192x256_S8192x256_0_0 : ∀ a, (![0, 0] : Fin 2 → Nat) a + S8192x256.size a ≤ S8192x256.size a
  h_S8192x256 : 0 < S8192x256.numel
  broadcasts_S1x256_S256x256 : S1x256.Broadcasts S256x256
  inb_S256x1_S256x1_0_0 : ∀ a, (![0, 0] : Fin 2 → Nat) a + S256x1.size a ≤ S256x1.size a
  h_S256x1 : 0 < S256x1.numel
  shapeCasts_S256x1_S256 : S256x1.ShapeCasts S256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S256x256_S256 : S256x256.Reduces [1] S256
  inpos_S1x1_p0_0 : ∀ a, (![0, 0] : Fin 2 → Nat) a < S1x1.size a
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S8x1x256_S8x256 : S8x1x256.ShapeCasts S8x256
  reducesTo_S8x256_S256_d0 : S8x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  scatter_S65536_S524288x1_S524288_n_0_0_1_wf : ScatterDims.WF S65536 S524288x1 S524288 [] [0] [0] 1
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S4096x128_S128x256_S4096x256_1_0_0_1_n_n_wf : DotDims.WF S4096x128 S128x256 S4096x256 [1] [0] [0] [1] [] []
  gather_S65536x256_S524288x1_S524288x256_1_0_n_n_0_1_1256_wf : GatherDims.WF S65536x256 S524288x1 S524288x256 [1] [0] [] [0] [] 1 ![1, 256]
  scatter_S65536x256_S524288x1_S524288x256_1_0_0_1_wf : ScatterDims.WF S65536x256 S524288x1 S524288x256 [1] [0] [0] 1
  dot_S4096x256_S256x256_S4096x256_1_0_0_1_n_n_wf : DotDims.WF S4096x256 S256x256 S4096x256 [1] [0] [0] [1] [] []
  dot_S256x8192_S8192x256_S256x256_1_0_0_1_n_n_wf : DotDims.WF S256x8192 S8192x256 S256x256 [1] [0] [0] [1] [] []
  dot_S8x256_S256x256_S8x256_1_0_0_1_n_n_wf : DotDims.WF S8x256 S256x256 S8x256 [1] [0] [0] [1] [] []
  dot_S8x256_S256x8_S8x8_1_0_0_1_n_n_wf : DotDims.WF S8x256 S256x8 S8x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S65536x256.size a
  hwx0_5 : ∀ i : grid0.Coords, EltTy.bits .f32 = 32 ∨ (Rect.block (s := S65536x256) S4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S65536x256.size a
  hwx1_0 : ∀ i : grid1.Coords, EltTy.bits .f32 = 32 ∨ (Rect.block (s := S65536x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S65536x256.size a
  hwx1_1 : ∀ i : grid1.Coords, EltTy.bits .f32 = 32 ∨ (Rect.block (s := S65536x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S65536x256.size a
  hwx1_5 : ∀ i : grid1.Coords, EltTy.bits .f32 = 32 ∨ (Rect.block (s := S65536x256) S4096x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S65536x256.size a
  hwx2_0 : ∀ i : grid2.Coords, EltTy.bits .f32 = 32 ∨ (Rect.block (s := S65536x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S65536x256.size a
  hwx2_1 : ∀ i : grid2.Coords, EltTy.bits .f32 = 32 ∨ (Rect.block (s := S65536x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S65536x256.size a
  hwx2_5 : ∀ i : grid2.Coords, EltTy.bits .f32 = 32 ∨ (Rect.block (s := S65536x256) S4096x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S65536x256.size a
  hwx3_0 : ∀ i : grid3.Coords, EltTy.bits .f32 = 32 ∨ (Rect.block (s := S65536x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x256.size a ≤ S65536x256.size a
  hwx3_1 : ∀ i : grid3.Coords, EltTy.bits .f32 = 32 ∨ (Rect.block (s := S65536x256) S4096x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x256.size a ≤ S65536x256.size a
  hwx3_5 : ∀ i : grid3.Coords, EltTy.bits .f32 = 32 ∨ (Rect.block (s := S65536x256) S4096x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x8192.size a ≤ S8x256x8192.size a
  hwx4_0 : ∀ i : grid4.Coords, EltTy.bits .f32 = 32 ∨ (Rect.block (s := S8x256x8192) S1x256x8192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .f32 = 32 ∨ (Rect.block (s := S8192x256) S8192x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .f32 = 32 ∨ (Rect.block (s := S256x1) S256x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x256.size a ≤ S8x1x256.size a
  hwx4_5 : ∀ i : grid4.Coords, EltTy.bits .f32 = 32 ∨ (Rect.block (s := S8x1x256) S1x1x256.size (cc4_transform_5 i) (hinb4_5 i)).WholeWords (EltTy.packing .f32)

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S65536x256_S524288x1_S524288x256_1_0_n_n_0_1_1256 : GatherDims S65536x256 S524288x1 S524288x256 where
  offsetDims := [1]
  collapsedSliceDims := [0]
  operandBatchingDims := []
  startIndicesBatchingDims := []
  startIndexMap := [0]
  indexVectorDim := 1
  sliceSizes := ![1, 256]
  wf := gather_S65536x256_S524288x1_S524288x256_1_0_n_n_0_1_1256_wf
def scatter_S65536x256_S524288x1_S524288x256_1_0_0_1 : ScatterDims S65536x256 S524288x1 S524288x256 where
  updateWindowDims := [1]
  insertedWindowDims := [0]
  scatterDimsToOperandDims := [0]
  indexVectorDim := 1
  wf := scatter_S65536x256_S524288x1_S524288x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x8_S8x8_1_0_0_1_n_n : DotDims S8x256 S256x8 S8x8 where
  lhsContracting := [1]
  rhsContracting := [0]
  lhsNonContracting := [0]
  rhsNonContracting := [1]
  lhsBatch := []
  rhsBatch := []
  wf := dot_S8x256_S256x8_S8x8_1_0_0_1_n_n_wf

abbrev win0_0 : Pipeline.Window sig grid0 :=
  Pipeline.Window.ofSpec (Memref.whole main_v15) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S4096x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S4096x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S4096x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v42) S1x256x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S256x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v44) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S1x1x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S65536x32 : Shape := ⟨2, ![65536, 32]⟩
abbrev S524288 : Shape := ⟨1, ![524288]⟩
abbrev S128x256 : Shape := ⟨2, ![128, 256]⟩
abbrev S256 : Shape := ⟨1, ![256]⟩
abbrev S256x256 : Shape := ⟨2, ![256, 256]⟩
abbrev S8192x256 : Shape := ⟨2, ![8192, 256]⟩
abbrev S256x1 : Shape := ⟨2, ![256, 1]⟩
abbrev S1 : Shape := ⟨1, ![1]⟩
abbrev S256x8 : Shape := ⟨2, ![256, 8]⟩
abbrev S8 : Shape := ⟨1, ![8]⟩
abbrev S65536x128 : Shape := ⟨2, ![65536, 128]⟩
abbrev S_ : Shape := ⟨0, ![]⟩
abbrev S65536 : Shape := ⟨1, ![65536]⟩
abbrev S524288x1 : Shape := ⟨2, ![524288, 1]⟩
abbrev S524288x128 : Shape := ⟨2, ![524288, 128]⟩
abbrev S65536x1 : Shape := ⟨2, ![65536, 1]⟩
abbrev S65536x256 : Shape := ⟨2, ![65536, 256]⟩
abbrev S1x256 : Shape := ⟨2, ![1, 256]⟩
abbrev S524288x256 : Shape := ⟨2, ![524288, 256]⟩
abbrev S8x256x8192 : Shape := ⟨3, ![8, 256, 8192]⟩
abbrev S8x256x256 : Shape := ⟨3, ![8, 256, 256]⟩
abbrev S1x1x256 : Shape := ⟨3, ![1, 1, 256]⟩
abbrev S8x256x1 : Shape := ⟨3, ![8, 256, 1]⟩
abbrev S1x1x1 : Shape := ⟨3, ![1, 1, 1]⟩
abbrev S8x256 : Shape := ⟨2, ![8, 256]⟩
abbrev S8x8 : Shape := ⟨2, ![8, 8]⟩
abbrev S1x8 : Shape := ⟨2, ![1, 8]⟩

abbrev nBuf : Space → Nat
  | .hbm => 209
  | .vmem => 0
  | .smem => 0
  | _ => 0

abbrev hbmTy0_0 (i : Nat) : BufTy := match i % 128 with
  | 0 => ⟨S65536x32, .f32⟩
  | 1 => ⟨S65536x32, .f32⟩
  | 2 => ⟨S65536x32, .f32⟩
  | 3 => ⟨S65536x32, .f32⟩
  | 4 => ⟨S524288, .i32⟩
  | 5 => ⟨S524288, .i32⟩
  | 6 => ⟨S128x256, .f32⟩
  | 7 => ⟨S128x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256x256, .f32⟩
  | 14 => ⟨S256, .f32⟩
  | 15 => ⟨S256x256, .f32⟩
  | 16 => ⟨S256x256, .f32⟩
  | 17 => ⟨S256, .f32⟩
  | 18 => ⟨S8192x256, .f32⟩
  | 19 => ⟨S256, .f32⟩
  | 20 => ⟨S256x1, .f32⟩
  | 21 => ⟨S1, .f32⟩
  | 22 => ⟨S256, .f32⟩
  | 23 => ⟨S256, .f32⟩
  | 24 => ⟨S256x256, .f32⟩
  | 25 => ⟨S256, .f32⟩
  | 26 => ⟨S256x8, .f32⟩
  | 27 => ⟨S8, .f32⟩
  | 28 => ⟨S65536x128, .f32⟩
  | 29 => ⟨S_, .f32⟩
  | 30 => ⟨S524288, .f32⟩
  | 31 => ⟨S_, .f32⟩
  | 32 => ⟨S65536, .f32⟩
  | 33 => ⟨S524288x1, .i32⟩
  | 34 => ⟨S65536, .f32⟩
  | 35 => ⟨S_, .f32⟩
  | 36 => ⟨S65536, .f32⟩
  | 37 => ⟨S65536, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x128, .f32⟩
  | 47 => ⟨S_, .f32⟩
  | 48 => ⟨S65536x128, .f32⟩
  | 49 => ⟨S524288x1, .i32⟩
  | 50 => ⟨S65536x128, .f32⟩
  | 51 => ⟨S65536x1, .f32⟩
  | 52 => ⟨S65536x128, .f32⟩
  | 53 => ⟨S65536x128, .f32⟩
  | 54 => ⟨S65536x256, .f32⟩
  | 55 => ⟨S65536x256, .f32⟩
  | 56 => ⟨S65536x256, .f32⟩
  | 57 => ⟨S1x256, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S524288x1, .i32⟩
  | 71 => ⟨S524288x256, .f32⟩
  | 72 => ⟨S_, .f32⟩
  | 73 => ⟨S65536x256, .f32⟩
  | 74 => ⟨S524288x1, .i32⟩
  | 75 => ⟨S65536x256, .f32⟩
  | 76 => ⟨S65536x1, .f32⟩
  | 77 => ⟨S65536x256, .f32⟩
  | 78 => ⟨S65536x256, .f32⟩
  | 79 => ⟨S65536x256, .f32⟩
  | 80 => ⟨S65536x256, .f32⟩
  | 81 => ⟨S65536x256, .f32⟩
  | 82 => ⟨S1x256, .f32⟩
  | 83 => ⟨S65536x256, .f32⟩
  | 84 => ⟨S65536x256, .f32⟩
  | 85 => ⟨S_, .f32⟩
  | 86 => ⟨S65536x256, .f32⟩
  | 87 => ⟨S65536x256, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S524288x1, .i32⟩
  | 96 => ⟨S524288x256, .f32⟩
  | 97 => ⟨S_, .f32⟩
  | 98 => ⟨S65536x256, .f32⟩
  | 99 => ⟨S524288x1, .i32⟩
  | 100 => ⟨S65536x256, .f32⟩
  | 101 => ⟨S65536x1, .f32⟩
  | 102 => ⟨S65536x256, .f32⟩
  | 103 => ⟨S65536x256, .f32⟩
  | 104 => ⟨S65536x256, .f32⟩
  | 105 => ⟨S65536x256, .f32⟩
  | 106 => ⟨S65536x256, .f32⟩
  | 107 => ⟨S1x256, .f32⟩
  | 108 => ⟨S65536x256, .f32⟩
  | 109 => ⟨S65536x256, .f32⟩
  | 110 => ⟨S_, .f32⟩
  | 111 => ⟨S65536x256, .f32⟩
  | 112 => ⟨S65536x256, .f32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S524288x256, .f32⟩
  | 122 => ⟨S_, .f32⟩
  | 123 => ⟨S65536x256, .f32⟩
  | 124 => ⟨S524288x1, .i32⟩
  | 125 => ⟨S65536x256, .f32⟩
  | 126 => ⟨S65536x1, .f32⟩
  | 127 => ⟨S65536x256, .f32⟩
  | _ => ⟨S65536x32, .f32⟩

abbrev hbmTy0_1 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S1x256, .f32⟩
  | 5 => ⟨S65536x256, .f32⟩
  | 6 => ⟨S65536x256, .f32⟩
  | 7 => ⟨S_, .f32⟩
  | 8 => ⟨S65536x256, .f32⟩
  | 9 => ⟨S65536x256, .f32⟩
  | 10 => ⟨S8x256x8192, .f32⟩
  | 11 => ⟨S8x256x256, .f32⟩
  | 12 => ⟨S1x1x256, .f32⟩
  | 13 => ⟨S8x256x256, .f32⟩
  | 14 => ⟨S8x256x256, .f32⟩
  | 15 => ⟨S_, .f32⟩
  | 16 => ⟨S8x256x256, .f32⟩
  | 17 => ⟨S8x256x256, .f32⟩
  | 18 => ⟨S8x256x1, .f32⟩
  | 19 => ⟨S1x1x1, .f32⟩
  | 20 => ⟨S8x256x1, .f32⟩
  | 21 => ⟨S8x256x1, .f32⟩
  | 22 => ⟨S8x256, .f32⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S8x256, .f32⟩
  | 36 => ⟨S8x256, .f32⟩
  | 37 => ⟨S8x256, .f32⟩
  | 38 => ⟨S_, .f32⟩
  | 39 => ⟨S_, .f32⟩
  | 40 => ⟨S_, .f32⟩
  | 41 => ⟨S_, .f32⟩
  | 42 => ⟨S256, .f32⟩
  | 43 => ⟨S256, .f32⟩
  | 44 => ⟨S256, .f32⟩
  | 45 => ⟨S_, .f32⟩
  | 46 => ⟨S_, .i1⟩
  | 47 => ⟨S_, .f32⟩
  | 48 => ⟨S_, .f32⟩
  | 49 => ⟨S256, .f32⟩
  | 50 => ⟨S256, .f32⟩
  | 51 => ⟨S1x256, .f32⟩
  | 52 => ⟨S8x256, .f32⟩
  | 53 => ⟨S8x256, .f32⟩
  | 54 => ⟨S_, .f32⟩
  | 55 => ⟨S256, .f32⟩
  | 56 => ⟨S256, .f32⟩
  | 57 => ⟨S256, .f32⟩
  | 58 => ⟨S1x256, .f32⟩
  | 59 => ⟨S8x256, .f32⟩
  | 60 => ⟨S8x256, .f32⟩
  | 61 => ⟨S1x256, .f32⟩
  | 62 => ⟨S8x256, .f32⟩
  | 63 => ⟨S8x256, .f32⟩
  | 64 => ⟨S1x256, .f32⟩
  | 65 => ⟨S8x256, .f32⟩
  | 66 => ⟨S8x256, .f32⟩
  | 67 => ⟨S_, .f32⟩
  | 68 => ⟨S8x256, .f32⟩
  | 69 => ⟨S8x256, .f32⟩
  | 70 => ⟨S8x256, .f32⟩
  | 71 => ⟨S1x256, .f32⟩
  | 72 => ⟨S8x256, .f32⟩
  | 73 => ⟨S8x256, .f32⟩
  | 74 => ⟨S_, .f32⟩
  | 75 => ⟨S8x256, .f32⟩
  | 76 => ⟨S8x256, .f32⟩
  | 77 => ⟨S8x8, .f32⟩
  | 78 => ⟨S1x8, .f32⟩
  | 79 => ⟨S8x8, .f32⟩
  | 80 => ⟨S8x8, .f32⟩
  | _ => ⟨S65536x32, .f32⟩

abbrev hbmTy (i : Nat) : BufTy := match i / 128 with
  | 0 => hbmTy0_0 i
  | 1 => hbmTy0_1 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_c : Ref sig .tc := ⟨.hbm, 38, rfl⟩
abbrev main_v7 : Ref sig .tc := ⟨.hbm, 39, rfl⟩
abbrev main_v8 : Ref sig .tc := ⟨.hbm, 40, rfl⟩
abbrev main_c_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call0_cst : Ref sig .tc := ⟨.hbm, 60, rfl⟩
abbrev main_call0_v0 : Ref sig .tc := ⟨.hbm, 61, rfl⟩
abbrev main_v26 : Ref sig .tc := ⟨.hbm, 62, rfl⟩
abbrev main_c_4 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call1_cst : Ref sig .tc := ⟨.hbm, 85, rfl⟩
abbrev main_call1_v0 : Ref sig .tc := ⟨.hbm, 86, rfl⟩
abbrev main_v46 : Ref sig .tc := ⟨.hbm, 87, rfl⟩
abbrev main_c_7 : Ref sig .tc := ⟨.hbm, 88, rfl⟩
abbrev main_v47 : Ref sig .tc := ⟨.hbm, 89, rfl⟩
abbrev main_v48 : Ref sig .tc := ⟨.hbm, 90, rfl⟩
abbrev main_c_8 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_9 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_call2_cst : Ref sig .tc := ⟨.hbm, 110, rfl⟩
abbrev main_call2_v0 : Ref sig .tc := ⟨.hbm, 111, rfl⟩
abbrev main_v66 : Ref sig .tc := ⟨.hbm, 112, rfl⟩
abbrev main_c_10 : Ref sig .tc := ⟨.hbm, 113, rfl⟩
abbrev main_v67 : Ref sig .tc := ⟨.hbm, 114, rfl⟩
abbrev main_v68 : Ref sig .tc := ⟨.hbm, 115, rfl⟩
abbrev main_c_11 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_12 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_call3_cst : Ref sig .tc := ⟨.hbm, 135, rfl⟩
abbrev main_call3_v0 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_call4_cst : Ref sig .tc := ⟨.hbm, 143, rfl⟩
abbrev main_call4_v0 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_13 : Ref sig .tc := ⟨.hbm, 151, rfl⟩
abbrev main_v98 : Ref sig .tc := ⟨.hbm, 152, rfl⟩
abbrev main_cst_14 : Ref sig .tc := ⟨.hbm, 153, rfl⟩
abbrev main_v99 : Ref sig .tc := ⟨.hbm, 154, rfl⟩
abbrev main_v100 : Ref sig .tc := ⟨.hbm, 155, rfl⟩
abbrev main_c_15 : Ref sig .tc := ⟨.hbm, 156, rfl⟩
abbrev main_call5_cst : Ref sig .tc := ⟨.hbm, 157, rfl⟩
abbrev main_call5_v0 : Ref sig .tc := ⟨.hbm, 158, rfl⟩
abbrev main_call5_v1 : Ref sig .tc := ⟨.hbm, 159, rfl⟩
abbrev main_call5_cst_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_v6 : Ref sig .tc := ⟨.hbm, 165, rfl⟩
abbrev main_call5_v7 : Ref sig .tc := ⟨.hbm, 166, rfl⟩
abbrev main_call5_cst_1 : Ref sig .tc := ⟨.hbm, 167, rfl⟩
abbrev main_call5_v8 : Ref sig .tc := ⟨.hbm, 168, rfl⟩
abbrev main_call5_cst_2 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_cst_3 : Ref sig .tc := ⟨.hbm, 173, rfl⟩
abbrev main_call5_v12 : Ref sig .tc := ⟨.hbm, 174, rfl⟩
abbrev main_call5_cst_4 : Ref sig .tc := ⟨.hbm, 175, rfl⟩
abbrev main_call5_call0_v0 : Ref sig .tc := ⟨.hbm, 176, rfl⟩
abbrev main_call5_call0_v1 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_cst_16 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_call6_cst : Ref sig .tc := ⟨.hbm, 195, rfl⟩
abbrev main_call6_v0 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_call7_cst : Ref sig .tc := ⟨.hbm, 202, rfl⟩
abbrev main_call7_v0 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩

abbrev nD : Nat := 1
abbrev τ : Topo := Topo.v7x

variable {F : FTy → Type} [FloatOps F]

class Facts₀ : Prop where
  concatenates_S65536x32_S65536x32_S65536x32_S65536x32_S65536x128_d1 : Shape.Concatenates [S65536x32, S65536x32, S65536x32, S65536x32] S65536x128 1
  bcast_S_S524288 : S_.BroadcastsInDim S524288 (![] : Fin 0 → Fin S524288.rank)
  bcast_S_S65536 : S_.BroadcastsInDim S65536 (![] : Fin 0 → Fin S65536.rank)
  bcast_S524288_S524288x1_0 : S524288.BroadcastsInDim S524288x1 (![0] : Fin 1 → Fin S524288x1.rank)
  bcast_S_S65536x128 : S_.BroadcastsInDim S65536x128 (![] : Fin 0 → Fin S65536x128.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  shapeCasts_S65536x256_S8x256x8192 : S65536x256.ShapeCasts S8x256x8192
  bcast_S256_S1x1x256_2 : S256.BroadcastsInDim S1x1x256 (![2] : Fin 1 → Fin S1x1x256.rank)
  bcast_S1x1x256_S8x256x256_0_1_2 : S1x1x256.BroadcastsInDim S8x256x256 (![0, 1, 2] : Fin 3 → Fin S8x256x256.rank)
  bcast_S_S8x256x256 : S_.BroadcastsInDim S8x256x256 (![] : Fin 0 → Fin S8x256x256.rank)
  bcast_S1_S1x1x1_2 : S1.BroadcastsInDim S1x1x1 (![2] : Fin 1 → Fin S1x1x1.rank)
  bcast_S1x1x1_S8x256x1_0_1_2 : S1x1x1.BroadcastsInDim S8x256x1 (![0, 1, 2] : Fin 3 → Fin S8x256x1.rank)
  shapeCasts_S8x256x1_S8x256 : S8x256x1.ShapeCasts S8x256
  reducesTo_S8x256_S256_d0 : S8x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  scatter_S65536_S524288x1_S524288_n_0_0_1_wf : ScatterDims.WF S65536 S524288x1 S524288 [] [0] [0] 1
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S65536x128_S128x256_S65536x256_1_0_0_1_n_n_wf : DotDims.WF S65536x128 S128x256 S65536x256 [1] [0] [0] [1] [] []
  gather_S65536x256_S524288x1_S524288x256_1_0_n_n_0_1_1256_wf : GatherDims.WF S65536x256 S524288x1 S524288x256 [1] [0] [] [0] [] 1 ![1, 256]
  scatter_S65536x256_S524288x1_S524288x256_1_0_0_1_wf : ScatterDims.WF S65536x256 S524288x1 S524288x256 [1] [0] [0] 1
  dot_S65536x256_S256x256_S65536x256_1_0_0_1_n_n_wf : DotDims.WF S65536x256 S256x256 S65536x256 [1] [0] [0] [1] [] []
  dot_S8x256x8192_S8192x256_S8x256x256_2_0_01_1_n_n_wf : DotDims.WF S8x256x8192 S8192x256 S8x256x256 [2] [0] [0, 1] [1] [] []
  dot_S8x256x256_S256x1_S8x256x1_2_0_01_1_n_n_wf : DotDims.WF S8x256x256 S256x1 S8x256x1 [2] [0] [0, 1] [1] [] []
  dot_S8x256_S256x256_S8x256_1_0_0_1_n_n_wf : DotDims.WF S8x256 S256x256 S8x256 [1] [0] [0] [1] [] []
  dot_S8x256_S256x8_S8x8_1_0_0_1_n_n_wf : DotDims.WF S8x256 S256x8 S8x8 [1] [0] [0] [1] [] []

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def gather_S65536x256_S524288x1_S524288x256_1_0_n_n_0_1_1256 : GatherDims S65536x256 S524288x1 S524288x256 where
  offsetDims := [1]
  collapsedSliceDims := [0]
  operandBatchingDims := []
  startIndicesBatchingDims := []
  startIndexMap := [0]
  indexVectorDim := 1
  sliceSizes := ![1, 256]
  wf := gather_S65536x256_S524288x1_S524288x256_1_0_n_n_0_1_1256_wf
def scatter_S65536x256_S524288x1_S524288x256_1_0_0_1 : ScatterDims S65536x256 S524288x1 S524288x256 where
  updateWindowDims := [1]
  insertedWindowDims := [0]
  scatterDimsToOperandDims := [0]
  indexVectorDim := 1
  wf := scatter_S65536x256_S524288x1_S524288x256_1_0_0_1_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S8x256x8192_S8192x256_S8x256x256_2_0_01_1_n_n : DotDims S8x256x8192 S8192x256 S8x256x256 where
  lhsContracting := [2]
  rhsContracting := [0]
  lhsNonContracting := [0, 1]
  rhsNonContracting := [1]
  lhsBatch := []
  rhsBatch := []
  wf := dot_S8x256x8192_S8192x256_S8x256x256_2_0_01_1_n_n_wf
def dot_S8x256x256_S256x1_S8x256x1_2_0_01_1_n_n : DotDims S8x256x256 S256x1 S8x256x1 where
  lhsContracting := [2]
  rhsContracting := [0]
  lhsNonContracting := [0, 1]
  rhsNonContracting := [1]
  lhsBatch := []
  rhsBatch := []
  wf := dot_S8x256x256_S256x1_S8x256x1_2_0_01_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x8_S8x8_1_0_0_1_n_n : DotDims S8x256 S256x8 S8x8 where
  lhsContracting := [1]
  rhsContracting := [0]
  lhsNonContracting := [0]
  rhsNonContracting := [1]
  lhsBatch := []
  rhsBatch := []
  wf := dot_S8x256_S256x8_S8x8_1_0_0_1_n_n_wf

class Facts : Prop extends Facts₀ where

variable [Facts]
-- ==== Proof.K.Reg0.lean ====
import proofs.«408721_j11879879540745_1_alg».proof.Proof.Gen.Kernel.Launch
import proofs.«408721_j11879879540745_1_alg».proof.Proof.Gen.Kernel.Skeleton
import proofs.«408721_j11879879540745_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x128
local notation "SW1" => S4096x128
local notation "SW2" => S128x256
local notation "SW3" => S128x256
local notation "SW4" => S1x256
local notation "SW5" => S4096x256

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect SW0 := .unit ![0, 0] (SW0).size (by decide)
abbrev r0_1 : Rect SW1 := .unit ![0, 0] (SW1).size (by decide)
abbrev r0_2 : Rect SW2 := .unit ![0, 0] (SW2).size (by decide)
abbrev r0_3 : Rect SW3 := .unit ![0, 0] (SW3).size (by decide)
abbrev r0_4 : Rect SW4 := .unit ![0, 0] (SW4).size (by decide)
abbrev r0_5 : Rect SW5 := .unit ![0, 0] (SW5).size (by decide)

def out0_5 (x0 : Vec F SW0 .f32) (x1 : Vec F SW1 .f32) (x2 : Vec F SW2 .f32) (x3 : Vec F SW3 .f32) (x4 : Vec F SW4 .f32) : Vec F SW5 .f32 :=
  View.canon [⟨r0_5, k0_pay1 (View.ld x0 r0_0) (View.ld x1 r0_1) (View.ld x2 r0_2) (View.ld x3 r0_3) (View.ld x4 r0_4)⟩]

/-- The body loads its five inputs whole and stores once over the whole output block: the inputs stay, the output reads the payload. -/
theorem sound_kernel0 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- For an input window, what the body finds at a point is what it leaves there. -/
theorem before0 (c : Dev nD) (w : Fin cfg0.W) (hw : (cfg0.win w).isOut = false) (t : Fin cfg0.N) (d) :
    (dat0 V c).before w t d = (dat0 V c).after w t := by
  fin_cases w <;> first
    | exact absurd hw (by decide)
    | exact Dat.before_in_eq_fetched _ _ hw (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp +decide only [before0 V c]
  dsimp only [dat0, Dat.owesAt, Dat.bound]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩⟩
  iapply sound_kernel0 c Set.univ
  iframe H0 H1 H2 H3 H4
  isplitl [H5]; · iexists _; iexact H5
  iintro ⟨H0, H1, H2, H3, H4, H5⟩
  iframe

end Cert.Kernel.Hand

end
-- ==== Proof.K.Reg1.lean ====
import proofs.«408721_j11879879540745_1_alg».proof.Proof.Gen.Kernel.Launch
import proofs.«408721_j11879879540745_1_alg».proof.Proof.Gen.Kernel.Skeleton
import proofs.«408721_j11879879540745_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x256
local notation "SW1" => S4096x256
local notation "SW2" => S256x256
local notation "SW3" => S256x256
local notation "SW4" => S1x256
local notation "SW5" => S4096x256

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect SW0 := .unit ![0, 0] (SW0).size (by decide)
abbrev r1_1 : Rect SW1 := .unit ![0, 0] (SW1).size (by decide)
abbrev r1_2 : Rect SW2 := .unit ![0, 0] (SW2).size (by decide)
abbrev r1_3 : Rect SW3 := .unit ![0, 0] (SW3).size (by decide)
abbrev r1_4 : Rect SW4 := .unit ![0, 0] (SW4).size (by decide)
abbrev r1_5 : Rect SW5 := .unit ![0, 0] (SW5).size (by decide)

def out1_5 (x0 : Vec F SW0 .f32) (x1 : Vec F SW1 .f32) (x2 : Vec F SW2 .f32) (x3 : Vec F SW3 .f32) (x4 : Vec F SW4 .f32) : Vec F SW5 .f32 :=
  View.canon [⟨r1_5, k1_pay1 (View.ld x0 r1_0) (View.ld x1 r1_1) (View.ld x2 r1_2) (View.ld x3 r1_3) (View.ld x4 r1_4)⟩]

/-- The body loads its five inputs whole and stores once over the whole output block: the inputs stay, the output reads the payload. -/
theorem sound_kernel1 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- For an input window, what the body finds at a point is what it leaves there. -/
theorem before1 (c : Dev nD) (w : Fin cfg1.W) (hw : (cfg1.win w).isOut = false) (t : Fin cfg1.N) (d) :
    (dat1 V c).before w t d = (dat1 V c).after w t := by
  fin_cases w <;> first
    | exact absurd hw (by decide)
    | exact Dat.before_in_eq_fetched _ _ hw (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp +decide only [before1 V c]
  dsimp only [dat1, Dat.owesAt, Dat.bound]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply sound_kernel1 c Set.univ
  iframe H0 H1 H2 H3 H4
  isplitl [H5]; · iexists _; iexact H5
  iintro ⟨H0, H1, H2, H3, H4, H5⟩
  iframe

end Cert.Kernel.Hand

end
-- ==== Proof.K.Reg2.lean ====
import proofs.«408721_j11879879540745_1_alg».proof.Proof.Gen.Kernel.Launch
import proofs.«408721_j11879879540745_1_alg».proof.Proof.Gen.Kernel.Skeleton
import proofs.«408721_j11879879540745_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x256
local notation "SW1" => S4096x256
local notation "SW2" => S256x256
local notation "SW3" => S256x256
local notation "SW4" => S1x256
local notation "SW5" => S4096x256

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect SW0 := .unit ![0, 0] (SW0).size (by decide)
abbrev r2_1 : Rect SW1 := .unit ![0, 0] (SW1).size (by decide)
abbrev r2_2 : Rect SW2 := .unit ![0, 0] (SW2).size (by decide)
abbrev r2_3 : Rect SW3 := .unit ![0, 0] (SW3).size (by decide)
abbrev r2_4 : Rect SW4 := .unit ![0, 0] (SW4).size (by decide)
abbrev r2_5 : Rect SW5 := .unit ![0, 0] (SW5).size (by decide)

def out2_5 (x0 : Vec F SW0 .f32) (x1 : Vec F SW1 .f32) (x2 : Vec F SW2 .f32) (x3 : Vec F SW3 .f32) (x4 : Vec F SW4 .f32) : Vec F SW5 .f32 :=
  View.canon [⟨r2_5, k2_pay1 (View.ld x0 r2_0) (View.ld x1 r2_1) (View.ld x2 r2_2) (View.ld x3 r2_3) (View.ld x4 r2_4)⟩]

/-- The body loads its five inputs whole and stores once over the whole output block: the inputs stay, the output reads the payload. -/
theorem sound_kernel2 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out2_5 x0 x1 x2 x3 x4)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- For an input window, what the body finds at a point is what it leaves there. -/
theorem before2 (c : Dev nD) (w : Fin cfg2.W) (hw : (cfg2.win w).isOut = false) (t : Fin cfg2.N) (d) :
    (dat2 V c).before w t d = (dat2 V c).after w t := by
  fin_cases w <;> first
    | exact absurd hw (by decide)
    | exact Dat.before_in_eq_fetched _ _ hw (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp +decide only [before2 V c]
  dsimp only [dat2, Dat.owesAt, Dat.bound]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  iapply sound_kernel2 c Set.univ
  iframe H0 H1 H2 H3 H4
  isplitl [H5]; · iexists _; iexact H5
  iintro ⟨H0, H1, H2, H3, H4, H5⟩
  iframe

end Cert.Kernel.Hand

end
-- ==== Proof.K.Reg3.lean ====
import proofs.«408721_j11879879540745_1_alg».proof.Proof.Gen.Kernel.Launch
import proofs.«408721_j11879879540745_1_alg».proof.Proof.Gen.Kernel.Skeleton
import proofs.«408721_j11879879540745_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x256
local notation "SW1" => S4096x256
local notation "SW2" => S256x256
local notation "SW3" => S256x256
local notation "SW4" => S1x256
local notation "SW5" => S4096x256

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect SW0 := .unit ![0, 0] (SW0).size (by decide)
abbrev r3_1 : Rect SW1 := .unit ![0, 0] (SW1).size (by decide)
abbrev r3_2 : Rect SW2 := .unit ![0, 0] (SW2).size (by decide)
abbrev r3_3 : Rect SW3 := .unit ![0, 0] (SW3).size (by decide)
abbrev r3_4 : Rect SW4 := .unit ![0, 0] (SW4).size (by decide)
abbrev r3_5 : Rect SW5 := .unit ![0, 0] (SW5).size (by decide)

def out3_5 (x0 : Vec F SW0 .f32) (x1 : Vec F SW1 .f32) (x2 : Vec F SW2 .f32) (x3 : Vec F SW3 .f32) (x4 : Vec F SW4 .f32) : Vec F SW5 .f32 :=
  View.canon [⟨r3_5, k3_pay1 (View.ld x0 r3_0) (View.ld x1 r3_1) (View.ld x2 r3_2) (View.ld x3 r3_3) (View.ld x4 r3_4)⟩]

/-- The body loads its five inputs whole and stores once over the whole output block: the inputs stay, the output reads the payload. -/
theorem sound_kernel3 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out3_5 x0 x1 x2 x3 x4)) -∗ K ⟨⟩))
      ⊢ wp frame (wpE (defs₀ (F := F)) Variants.none c none) E (cc3__sage_kernel i arg1 harg1 arg2 harg2 arg3 harg3 arg4 harg4 arg5 harg5 arg6 harg6) K := by
  simp only [cc3__sage_kernel_eq_skeleton]; unfold cc3__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- For an input window, what the body finds at a point is what it leaves there. -/
theorem before3 (c : Dev nD) (w : Fin cfg3.W) (hw : (cfg3.win w).isOut = false) (t : Fin cfg3.N) (d) :
    (dat3 V c).before w t d = (dat3 V c).after w t := by
  fin_cases w <;> first
    | exact absurd hw (by decide)
    | exact Dat.before_in_eq_fetched _ _ hw (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp +decide only [before3 V c]
  dsimp only [dat3, Dat.owesAt, Dat.bound]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply sound_kernel3 c Set.univ
  iframe H0 H1 H2 H3 H4
  isplitl [H5]; · iexists _; iexact H5
  iintro ⟨H0, H1, H2, H3, H4, H5⟩
  iframe

end Cert.Kernel.Hand

end
-- ==== Proof.K.Reg4.lean ====
import proofs.«408721_j11879879540745_1_alg».proof.Proof.Gen.Kernel.Launch
import proofs.«408721_j11879879540745_1_alg».proof.Proof.Gen.Kernel.Skeleton
import proofs.«408721_j11879879540745_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S1x256x8192
local notation "SW1" => S8192x256
local notation "SW2" => S1x256
local notation "SW3" => S256x1
local notation "SW4" => S1x1
local notation "SW5" => S1x1x256

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect SW0 := .unit ![0, 0, 0] (SW0).size (by decide)
abbrev r4_1 : Rect SW1 := .unit ![0, 0] (SW1).size (by decide)
abbrev r4_2 : Rect SW2 := .unit ![0, 0] (SW2).size (by decide)
abbrev r4_3 : Rect SW3 := .unit ![0, 0] (SW3).size (by decide)
abbrev r4_4 : Rect SW4 := .unit ![0, 0] (SW4).size (by decide)
abbrev r4_5 : Rect SW5 := .unit ![0, 0, 0] (SW5).size (by decide)

def out4_5 (x0 : Vec F SW0 .f32) (x1 : Vec F SW1 .f32) (x2 : Vec F SW2 .f32) (x3 : Vec F SW3 .f32) (x4 : Vec F SW4 .f32) : Vec F SW5 .f32 :=
  View.canon [⟨r4_5, k4_pay1 (View.ld x0 r4_0) (View.ld x1 r4_1) (View.ld x2 r4_2) (View.ld x3 r4_3) (View.ld x4 r4_4)⟩]

/-- The body loads its five inputs whole and stores once over the whole output block: the inputs stay, the output reads the payload. -/
theorem sound_kernel4 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out4_5 x0 x1 x2 x3 x4)) -∗ K ⟨⟩))
      ⊢ wp frame (wpE (defs₀ (F := F)) Variants.none c none) E (cc4__mlp1_kernel i arg1 harg1 arg2 harg2 arg3 harg3 arg4 harg4 arg5 harg5 arg6 harg6) K := by
  simp only [cc4__mlp1_kernel_eq_skeleton]; unfold cc4__mlp1_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- For an input window, what the body finds at a point is what it leaves there. -/
theorem before4 (c : Dev nD) (w : Fin cfg4.W) (hw : (cfg4.win w).isOut = false) (t : Fin cfg4.N) (d) :
    (dat4 V c).before w t d = (dat4 V c).after w t := by
  fin_cases w <;> first
    | exact absurd hw (by decide)
    | exact Dat.before_in_eq_fetched _ _ hw (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp +decide only [before4 V c]
  dsimp only [dat4, Dat.owesAt, Dat.bound]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩⟩
  iapply sound_kernel4 c Set.univ
  iframe H0 H1 H2 H3 H4
  isplitl [H5]; · iexists _; iexact H5
  iintro ⟨H0, H1, H2, H3, H4, H5⟩
  iframe

end Cert.Kernel.Hand

end
-- ==== Proof.K.Segs.lean ====
import proofs.«408721_j11879879540745_1_alg».proof.Proof.K.Reg0
import proofs.«408721_j11879879540745_1_alg».proof.Proof.K.Reg1
import proofs.«408721_j11879879540745_1_alg».proof.Proof.K.Reg2
import proofs.«408721_j11879879540745_1_alg».proof.Proof.K.Reg3
import proofs.«408721_j11879879540745_1_alg».proof.Proof.K.Reg4
import proofs.«408721_j11879879540745_1_alg».proof.Proof.Gen.Kernel.Regions
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev ent0 : (c : Dev nD) → (b : Ref sig .tc) → Buf (Elt F) ((c : Thread nD τ).loc b) := fun c b => V3 m c b

def out0 (c : Dev nD) : Buf (Elt F) ((c : Thread nD τ).loc main_v17) := (dat0 (ent0 m) c).arrAt 5 cfg0.N

def outsA : Outs (F := F) := fun J r c => match J with
  | 4 => Function.update (V3 m c) main_v17 (out0 m c) r
  | _ => V0 m c r

abbrev ent1 : (c : Dev nD) → (b : Ref sig .tc) → Buf (Elt F) ((c : Thread nD τ).loc b) := fun c b => V6 m (outsA m) c b
def out1 (c : Dev nD) : Buf (Elt F) ((c : Thread nD τ).loc main_v25) := (dat1 (ent1 m) c).arrAt 5 cfg1.N

def outsB : Outs (F := F) := fun J r c => match J with
  | 7 => Function.update (V6 m (outsA m) c) main_v25 (out1 m c) r
  | _ => outsA m J r c

abbrev ent2 : (c : Dev nD) → (b : Ref sig .tc) → Buf (Elt F) ((c : Thread nD τ).loc b) := fun c b => V9 m (outsB m) c b
def out2 (c : Dev nD) : Buf (Elt F) ((c : Thread nD τ).loc main_v33) := (dat2 (ent2 m) c).arrAt 5 cfg2.N

def outsC : Outs (F := F) := fun J r c => match J with
  | 10 => Function.update (V9 m (outsB m) c) main_v33 (out2 m c) r
  | _ => outsB m J r c

abbrev ent3 : (c : Dev nD) → (b : Ref sig .tc) → Buf (Elt F) ((c : Thread nD τ).loc b) := fun c b => V12 m (outsC m) c b
def out3 (c : Dev nD) : Buf (Elt F) ((c : Thread nD τ).loc main_v41) := (dat3 (ent3 m) c).arrAt 5 cfg3.N

def outsD : Outs (F := F) := fun J r c => match J with
  | 13 => Function.update (V12 m (outsC m) c) main_v41 (out3 m c) r
  | _ => outsC m J r c

abbrev ent4 : (c : Dev nD) → (b : Ref sig .tc) → Buf (Elt F) ((c : Thread nD τ).loc b) := fun c b => V14 m (outsD m) c b
def out4 (c : Dev nD) : Buf (Elt F) ((c : Thread nD τ).loc main_v45) := (dat4 (ent4 m) c).arrAt 5 cfg4.N

def outs : Outs (F := F) := fun J r c => match J with
  | 15 => Function.update (V14 m (outsD m) c) main_v45 (out4 m c) r
  | _ => outsD m J r c

theorem outs_at4 (c : Dev nD) : outs m 4 main_v17 c = outsA m 4 main_v17 c := rfl
theorem outs_at7 (c : Dev nD) : outs m 7 main_v25 c = outsB m 7 main_v25 c := rfl
theorem outsB_at4 (c : Dev nD) : outsB m 4 main_v17 c = outsA m 4 main_v17 c := rfl
theorem outs_at10 (c : Dev nD) : outs m 10 main_v33 c = outsC m 10 main_v33 c := rfl
theorem outsC_at4 (c : Dev nD) : outsC m 4 main_v17 c = outsA m 4 main_v17 c := rfl
theorem outsC_at7 (c : Dev nD) : outsC m 7 main_v25 c = outsB m 7 main_v25 c := rfl
theorem outs_at13 (c : Dev nD) : outs m 13 main_v41 c = outsD m 13 main_v41 c := rfl
theorem outsD_at4 (c : Dev nD) : outsD m 4 main_v17 c = outsA m 4 main_v17 c := rfl
theorem outsD_at7 (c : Dev nD) : outsD m 7 main_v25 c = outsB m 7 main_v25 c := rfl
theorem outsD_at10 (c : Dev nD) : outsD m 10 main_v33 c = outsC m 10 main_v33 c := rfl

theorem V6_outs (c : Dev nD) : V6 m (outs m) c = V6 m (outsA m) c := by
  simp only [V6, V5, V4, outs_at4]
theorem V9_outs (c : Dev nD) : V9 m (outs m) c = V9 m (outsB m) c := by
  simp only [V9, V8, V7, V6, V5, V4, outs_at4, outs_at7, outsB_at4]
theorem V12_outs (c : Dev nD) : V12 m (outs m) c = V12 m (outsC m) c := by
  simp only [V12, V11, V10, V9, V8, V7, V6, V5, V4, outs_at4, outs_at7, outs_at10, outsC_at4, outsC_at7, outsB_at4]
theorem V14_outs (c : Dev nD) : V14 m (outs m) c = V14 m (outsD m) c := by
  simp only [V14, V13, V12, V11, V10, V9, V8, V7, V6, V5, V4, outs_at4, outs_at7, outs_at10, outs_at13,
    outsD_at4, outsD_at7, outsD_at10, outsC_at4, outsC_at7, outsB_at4]

theorem ent1_outs : (fun (c : Dev nD) (b : Ref sig .tc) => (V6 m (outs m) c b : Buf (Elt F) ((c : Thread nD τ).loc b))) = ent1 m := by
  funext c b; rw [V6_outs]
theorem ent2_outs : (fun (c : Dev nD) (b : Ref sig .tc) => (V9 m (outs m) c b : Buf (Elt F) ((c : Thread nD τ).loc b))) = ent2 m := by
  funext c b; rw [V9_outs]
theorem ent3_outs : (fun (c : Dev nD) (b : Ref sig .tc) => (V12 m (outs m) c b : Buf (Elt F) ((c : Thread nD τ).loc b))) = ent3 m := by
  funext c b; rw [V12_outs]
theorem ent4_outs : (fun (c : Dev nD) (b : Ref sig .tc) => (V14 m (outs m) c b : Buf (Elt F) ((c : Thread nD τ).loc b))) = ent4 m := by
  funext c b; rw [V14_outs]

theorem outs_4 (c : Dev nD) : outs m 4 main_v17 c = (dat0 (fun c b => V3 m c b) c).arrAt 5 cfg0.N :=
  (show Function.update (V3 m c) (main_v17 : DevRef τ sig) (out0 m c) (main_v17 : DevRef τ sig) = out0 m c from Function.update_self _ _ _)

theorem outs_7 (c : Dev nD) : outs m 7 main_v25 c = (dat1 (fun c b => V6 m (outs m) c b) c).arrAt 5 cfg1.N := by
  rw [ent1_outs]; exact (show Function.update (V6 m (outsA m) c) (main_v25 : DevRef τ sig) (out1 m c) (main_v25 : DevRef τ sig) = out1 m c from Function.update_self _ _ _)

theorem outs_10 (c : Dev nD) : outs m 10 main_v33 c = (dat2 (fun c b => V9 m (outs m) c b) c).arrAt 5 cfg2.N := by
  rw [ent2_outs]; exact (show Function.update (V9 m (outsB m) c) (main_v33 : DevRef τ sig) (out2 m c) (main_v33 : DevRef τ sig) = out2 m c from Function.update_self _ _ _)

theorem outs_13 (c : Dev nD) : outs m 13 main_v41 c = (dat3 (fun c b => V12 m (outs m) c b) c).arrAt 5 cfg3.N := by
  rw [ent3_outs]; exact (show Function.update (V12 m (outsC m) c) (main_v41 : DevRef τ sig) (out3 m c) (main_v41 : DevRef τ sig) = out3 m c from Function.update_self _ _ _)

theorem outs_15 (c : Dev nD) : outs m 15 main_v45 c = (dat4 (fun c b => V14 m (outs m) c b) c).arrAt 5 cfg4.N := by
  rw [ent4_outs]; exact (show Function.update (V14 m (outsD m) c) (main_v45 : DevRef τ sig) (out4 m c) (main_v45 : DevRef τ sig) = out4 m c from Function.update_self _ _ _)

def pdats : (p : Fin 5) → (c : Dev nD) → Dat τ (Elt F) Unit ℕ (UR sig nD τ) ℕ (cfgs p) c
  | ⟨0, _⟩ => fun c => dat0 (fun c b => V3 m c b) c
  | ⟨1, _⟩ => fun c => dat1 (fun c b => V6 m (outs m) c b) c
  | ⟨2, _⟩ => fun c => dat2 (fun c b => V9 m (outs m) c b) c
  | ⟨3, _⟩ => fun c => dat3 (fun c b => V12 m (outs m) c b) c
  | ⟨4, _⟩ => fun c => dat4 (fun c b => V14 m (outs m) c b) c

abbrev noPairs : GSem nD τ sig → Finset Unit := fun _ => ∅
abbrev noLevel : GSem nD τ sig → Unit → ℕ := fun _ _ => 0
abbrev rest (c : Dev nD) : sProp 𝕄 := iprop((∃ r, prngReg c r) ∗ ∃ W, owes (c : Thread nD τ) (0 : CellTallies nD τ sig Unit) W)

abbrev rd (W : Valuation τ sig (Elt F)) (c : Dev nD) : (b : Ref sig .tc) → Buf (Elt F) ((c : Thread nD τ).loc b) := fun b => W b

theorem prefHeld_none (p : Fin 5) (c : Dev nD) (q) (T) :
    (Pipeline.prefHeld (Ix := Unit) (Name := ℕ) (U := UR sig nD τ) (Lvl := ℕ) (Val := Elt F) (pcfgs (F := F) p).pre c q T : sProp 𝕄) = BI.emp := by
  unfold Pipeline.prefHeld
  show bigSep (∅ : Finset (Fin 0)) _ = _
  exact BI.bigSep_empty

set_option backward.isDefEq.respectTransparency.types false in
/-- The five regions' records differ only in the region's number, the contents before and after it and the body's run:
    one record, taken at each. -/
def regOf (p : Fin 5) (lf : Pipeline.LaunchFacts (nD := nD) (τ := τ) cfgs p) (Vin Vout : Dev nD → Valuation τ sig (Elt F))
    (hb : ∀ c, BodyObligation (pdats m p c) (defs₀ (F := F)) Variants.none () Set.univ)
    (hq : ∀ c w, (pdats m p c).q w = fullShare)
    (h0 : ∀ c t, (pdats m p c).owed t = 0) (hr : ∀ c t, (pdats m p c).recorded t = Set.univ)
    (hΦ : ∀ c t, (pdats m p c).Φ t = Pipeline.ΦA (cfgs p).spec c)
    (hA : ∀ c w, (pdats m p c).A w = rd (Vin c) c (Pipeline.arrRef (cfgs p).spec w))
    (wo : Fin (cfgs p).W)
    (hin : ∀ w, w ≠ wo → ((cfgs p).win w).isOut = false ∧ Pipeline.arrRef (cfgs p).spec w ≠ Pipeline.arrRef (cfgs p).spec wo)
    (hV : ∀ c, Vout c = Function.update (Vin c) (Pipeline.arrRef (cfgs p).spec wo : DevRef τ sig) ((pdats m p c).arrAt wo (cfgs p).N)) :
    RegionSeg (pcfgs (F := F)) adm (pdats m) () defs₀ Variants.none noPairs noLevel p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPairs noLevel p h0
  pre c := iprop(StableHlo.held (c : Thread nD τ) (Pipeline.ucRefs τ sig) (Vin c) ∗ rest c)
  post c := iprop(StableHlo.held (c : Thread nD τ) (Pipeline.ucRefs τ sig) (Vout c) ∗ rest c)
  X c := iprop(∃ r, prngReg c r)
  Y c := iprop(∃ r, prngReg c r)
  Z c := Pipeline.unscopedRest (Ix := Unit) (Name := ℕ) (U := UR sig nD τ) (Lvl := ℕ) (cfgs p).spec c (rd (Vin c) c)
  hentry c := by
    rw [Pipeline.ownSems0_none, prefHeld_none]
    have hsplit := Pipeline.arrays_of_unscopedBufs (p := p) (pcfgs (F := F)) adm (pdats m) lf.win lf.arr_whole c
      ((pdats m p c).share_full (hq c)) (rd (Vin c) c) (hA c)
    rw [Pipeline.unscopedBufs_held] at hsplit
    unfold Pipeline.Dat.owesAt Pipeline.owesWithin; rw [h0 c 0]
    iintro ⟨⟨Hub, Hp, ⟨%W, HO⟩⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl ((hr c 0).symm ▸ trivial)
      iexact HO
    isplitl [Hp] <;> iassumption
  hin c := by
    rw [hΦ c 0]; unfold Pipeline.ΦA
    iintro ⟨Hp, -, Hr⟩
    isplitl [Hr] <;> iassumption
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd (Vin c) c) (rd (Vout c) c) ((pdats m p c).arrAt · (cfgs p).N)
      (fun w => by
        rw [hV c]; by_cases h : w = wo
        · rw [h]; exact (Function.update_self (Pipeline.arrRef (cfgs p).spec wo : DevRef τ sig) _ (Vin c)).symm
        · exact ((pdats m p c).arrAt_in w (hin w h).1 _).trans ((hA c w).trans
            (Function.update_of_ne (StableHlo.devRef_ne_of_ne (hin w h).2) _ _).symm))
      (fun b hb => by
        rw [hV c]; exact Function.update_of_ne (StableHlo.devRef_ne_of_ne fun e =>
          hb (Finset.mem_image.mpr ⟨wo, Finset.mem_univ _, e.symm⟩)) _ _)
    rw [Pipeline.unscopedBufs_held] at hjoin
    unfold Pipeline.Dat.owesAt Pipeline.owesWithin; rw [h0 c (Fin.last _)]
    iintro ⟨Ha, ⟨%W, -, HO⟩, HY, Hrest⟩
    imodintro
    isplitl [Ha Hrest]
    · iapply hjoin; isplitl [Ha] <;> iassumption
    isplitl [HY]; · iexact HY
    iexists W; iexact HO

set_option backward.isDefEq.respectTransparency.types false in
def reg0 : RegionSeg (pcfgs (F := F)) adm (pdats m) () defs₀ Variants.none noPairs noLevel 0 :=
  regOf m 0 launch0 (V3 m) (V4 m (outs m)) (body_obligation0 _) (fun _ _ => rfl) (fun _ _ => rfl) (fun _ _ => rfl) (fun _ _ => rfl)
    (fun _ _ => rfl) 5 (by decide)
    (fun c => congrArg (Function.update (V3 m c) (main_v17 : DevRef τ sig)) (outs_4 m c))
set_option backward.isDefEq.respectTransparency.types false in
def reg1 : RegionSeg (pcfgs (F := F)) adm (pdats m) () defs₀ Variants.none noPairs noLevel 1 :=
  regOf m 1 launch1 (V6 m (outs m)) (V7 m (outs m)) (body_obligation1 _) (fun _ _ => rfl) (fun _ _ => rfl) (fun _ _ => rfl) (fun _ _ => rfl)
    (fun _ _ => rfl) 5 (by decide)
    (fun c => congrArg (Function.update (V6 m (outs m) c) (main_v25 : DevRef τ sig)) (outs_7 m c))
set_option backward.isDefEq.respectTransparency.types false in
def reg2 : RegionSeg (pcfgs (F := F)) adm (pdats m) () defs₀ Variants.none noPairs noLevel 2 :=
  regOf m 2 launch2 (V9 m (outs m)) (V10 m (outs m)) (body_obligation2 _) (fun _ _ => rfl) (fun _ _ => rfl) (fun _ _ => rfl) (fun _ _ => rfl)
    (fun _ _ => rfl) 5 (by decide)
    (fun c => congrArg (Function.update (V9 m (outs m) c) (main_v33 : DevRef τ sig)) (outs_10 m c))
set_option backward.isDefEq.respectTransparency.types false in
def reg3 : RegionSeg (pcfgs (F := F)) adm (pdats m) () defs₀ Variants.none noPairs noLevel 3 :=
  regOf m 3 launch3 (V12 m (outs m)) (V13 m (outs m)) (body_obligation3 _) (fun _ _ => rfl) (fun _ _ => rfl) (fun _ _ => rfl) (fun _ _ => rfl)
    (fun _ _ => rfl) 5 (by decide)
    (fun c => congrArg (Function.update (V12 m (outs m) c) (main_v41 : DevRef τ sig)) (outs_13 m c))
set_option backward.isDefEq.respectTransparency.types false in
def reg4 : RegionSeg (pcfgs (F := F)) adm (pdats m) () defs₀ Variants.none noPairs noLevel 4 :=
  regOf m 4 launch4 (V14 m (outs m)) (V15 m (outs m)) (body_obligation4 _) (fun _ _ => rfl) (fun _ _ => rfl) (fun _ _ => rfl) (fun _ _ => rfl)
    (fun _ _ => rfl) 5 (by decide)
    (fun c => congrArg (Function.update (V14 m (outs m) c) (main_v45 : DevRef τ sig)) (outs_15 m c))

theorem rest_owes (c : Dev nD) :
    (rest (F := F) c) ⊢ (iprop(∃ W, owes (c : Thread nD τ) (0 : CellTallies nD τ sig Unit) W) : sProp 𝕄) := by
  iintro ⟨-, H⟩; iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev u₀ := initOf (Pipeline.cells cfgs cellOf_inj) (Pipeline.launchToks cfgs cellOf_inj)

theorem launch_own : (ownU u₀ : sProp 𝕄)
    ⊢ |={Set.univ}=> iprop(BI.own (emb₁ u₀) ∗ bigSep Finset.univ fun _ : Dev nD => (BI.emp : sProp 𝕄)) := by
  iintro Hu; imodintro
  isplitl [Hu]
  · iapply (show (ownU u₀ : sProp 𝕄) ⊢ BI.own (emb₁ u₀) from .rfl); iexact Hu
  iapply (show (BI.emp : sProp 𝕄) ⊢ bigSep Finset.univ (fun _ : Dev nD => (BI.emp : sProp 𝕄)) from by rw [BI.bigSep_emp_const])
  iempintro

end Cert.Kernel.Hand

end
-- ==== Proof.KI.Reg0.lean ====
import proofs.«408721_j11879879540745_1_alg».proof.Proof.Gen.KernelIdeal.Launch
import proofs.«408721_j11879879540745_1_alg».proof.Proof.Gen.KernelIdeal.Skeleton
import proofs.«408721_j11879879540745_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x128
local notation "SW1" => S4096x128
local notation "SW2" => S128x256
local notation "SW3" => S128x256
local notation "SW4" => S1x256
local notation "SW5" => S4096x256

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect SW0 := .unit ![0, 0] (SW0).size (by decide)
abbrev r0_1 : Rect SW1 := .unit ![0, 0] (SW1).size (by decide)
abbrev r0_2 : Rect SW2 := .unit ![0, 0] (SW2).size (by decide)
abbrev r0_3 : Rect SW3 := .unit ![0, 0] (SW3).size (by decide)
abbrev r0_4 : Rect SW4 := .unit ![0, 0] (SW4).size (by decide)
abbrev r0_5 : Rect SW5 := .unit ![0, 0] (SW5).size (by decide)

def out0_5 (x0 : Vec F SW0 .f32) (x1 : Vec F SW1 .f32) (x2 : Vec F SW2 .f32) (x3 : Vec F SW3 .f32) (x4 : Vec F SW4 .f32) : Vec F SW5 .f32 :=
  View.canon [⟨r0_5, k0_pay1 (View.ld x0 r0_0) (View.ld x1 r0_1) (View.ld x2 r0_2) (View.ld x3 r0_3) (View.ld x4 r0_4)⟩]

/-- The body loads its five inputs whole and stores once over the whole output block: the inputs stay, the output reads the payload. -/
theorem sound_kernel0 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- For an input window, what the body finds at a point is what it leaves there. -/
theorem before0 (c : Dev nD) (w : Fin cfg0.W) (hw : (cfg0.win w).isOut = false) (t : Fin cfg0.N) (d) :
    (dat0 V c).before w t d = (dat0 V c).after w t := by
  fin_cases w <;> first
    | exact absurd hw (by decide)
    | exact Dat.before_in_eq_fetched _ _ hw (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp +decide only [before0 V c]
  dsimp only [dat0, Dat.owesAt, Dat.bound]
  change _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩⟩
  iapply sound_kernel0 c Set.univ
  iframe H0 H1 H2 H3 H4
  isplitl [H5]; · iexists _; iexact H5
  iintro ⟨H0, H1, H2, H3, H4, H5⟩
  iframe

end Cert.KernelIdeal.Hand

end
-- ==== Proof.KI.Reg1.lean ====
import proofs.«408721_j11879879540745_1_alg».proof.Proof.Gen.KernelIdeal.Launch
import proofs.«408721_j11879879540745_1_alg».proof.Proof.Gen.KernelIdeal.Skeleton
import proofs.«408721_j11879879540745_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x256
local notation "SW1" => S4096x256
local notation "SW2" => S256x256
local notation "SW3" => S256x256
local notation "SW4" => S1x256
local notation "SW5" => S4096x256

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect SW0 := .unit ![0, 0] (SW0).size (by decide)
abbrev r1_1 : Rect SW1 := .unit ![0, 0] (SW1).size (by decide)
abbrev r1_2 : Rect SW2 := .unit ![0, 0] (SW2).size (by decide)
abbrev r1_3 : Rect SW3 := .unit ![0, 0] (SW3).size (by decide)
abbrev r1_4 : Rect SW4 := .unit ![0, 0] (SW4).size (by decide)
abbrev r1_5 : Rect SW5 := .unit ![0, 0] (SW5).size (by decide)

def out1_5 (x0 : Vec F SW0 .f32) (x1 : Vec F SW1 .f32) (x2 : Vec F SW2 .f32) (x3 : Vec F SW3 .f32) (x4 : Vec F SW4 .f32) : Vec F SW5 .f32 :=
  View.canon [⟨r1_5, k1_pay1 (View.ld x0 r1_0) (View.ld x1 r1_1) (View.ld x2 r1_2) (View.ld x3 r1_3) (View.ld x4 r1_4)⟩]

/-- The body loads its five inputs whole and stores once over the whole output block: the inputs stay, the output reads the payload. -/
theorem sound_kernel1 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- For an input window, what the body finds at a point is what it leaves there. -/
theorem before1 (c : Dev nD) (w : Fin cfg1.W) (hw : (cfg1.win w).isOut = false) (t : Fin cfg1.N) (d) :
    (dat1 V c).before w t d = (dat1 V c).after w t := by
  fin_cases w <;> first
    | exact absurd hw (by decide)
    | exact Dat.before_in_eq_fetched _ _ hw (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp +decide only [before1 V c]
  dsimp only [dat1, Dat.owesAt, Dat.bound]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply sound_kernel1 c Set.univ
  iframe H0 H1 H2 H3 H4
  isplitl [H5]; · iexists _; iexact H5
  iintro ⟨H0, H1, H2, H3, H4, H5⟩
  iframe

end Cert.KernelIdeal.Hand

end
-- ==== Proof.KI.Reg2.lean ====
import proofs.«408721_j11879879540745_1_alg».proof.Proof.Gen.KernelIdeal.Launch
import proofs.«408721_j11879879540745_1_alg».proof.Proof.Gen.KernelIdeal.Skeleton
import proofs.«408721_j11879879540745_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x256
local notation "SW1" => S4096x256
local notation "SW2" => S256x256
local notation "SW3" => S256x256
local notation "SW4" => S1x256
local notation "SW5" => S4096x256

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect SW0 := .unit ![0, 0] (SW0).size (by decide)
abbrev r2_1 : Rect SW1 := .unit ![0, 0] (SW1).size (by decide)
abbrev r2_2 : Rect SW2 := .unit ![0, 0] (SW2).size (by decide)
abbrev r2_3 : Rect SW3 := .unit ![0, 0] (SW3).size (by decide)
abbrev r2_4 : Rect SW4 := .unit ![0, 0] (SW4).size (by decide)
abbrev r2_5 : Rect SW5 := .unit ![0, 0] (SW5).size (by decide)

def out2_5 (x0 : Vec F SW0 .f32) (x1 : Vec F SW1 .f32) (x2 : Vec F SW2 .f32) (x3 : Vec F SW3 .f32) (x4 : Vec F SW4 .f32) : Vec F SW5 .f32 :=
  View.canon [⟨r2_5, k2_pay1 (View.ld x0 r2_0) (View.ld x1 r2_1) (View.ld x2 r2_2) (View.ld x3 r2_3) (View.ld x4 r2_4)⟩]

/-- The body loads its five inputs whole and stores once over the whole output block: the inputs stay, the output reads the payload. -/
theorem sound_kernel2 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out2_5 x0 x1 x2 x3 x4)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- For an input window, what the body finds at a point is what it leaves there. -/
theorem before2 (c : Dev nD) (w : Fin cfg2.W) (hw : (cfg2.win w).isOut = false) (t : Fin cfg2.N) (d) :
    (dat2 V c).before w t d = (dat2 V c).after w t := by
  fin_cases w <;> first
    | exact absurd hw (by decide)
    | exact Dat.before_in_eq_fetched _ _ hw (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp +decide only [before2 V c]
  dsimp only [dat2, Dat.owesAt, Dat.bound]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩⟩
  iapply sound_kernel2 c Set.univ
  iframe H0 H1 H2 H3 H4
  isplitl [H5]; · iexists _; iexact H5
  iintro ⟨H0, H1, H2, H3, H4, H5⟩
  iframe

end Cert.KernelIdeal.Hand

end
-- ==== Proof.KI.Reg3.lean ====
import proofs.«408721_j11879879540745_1_alg».proof.Proof.Gen.KernelIdeal.Launch
import proofs.«408721_j11879879540745_1_alg».proof.Proof.Gen.KernelIdeal.Skeleton
import proofs.«408721_j11879879540745_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S4096x256
local notation "SW1" => S4096x256
local notation "SW2" => S256x256
local notation "SW3" => S256x256
local notation "SW4" => S1x256
local notation "SW5" => S4096x256

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect SW0 := .unit ![0, 0] (SW0).size (by decide)
abbrev r3_1 : Rect SW1 := .unit ![0, 0] (SW1).size (by decide)
abbrev r3_2 : Rect SW2 := .unit ![0, 0] (SW2).size (by decide)
abbrev r3_3 : Rect SW3 := .unit ![0, 0] (SW3).size (by decide)
abbrev r3_4 : Rect SW4 := .unit ![0, 0] (SW4).size (by decide)
abbrev r3_5 : Rect SW5 := .unit ![0, 0] (SW5).size (by decide)

def out3_5 (x0 : Vec F SW0 .f32) (x1 : Vec F SW1 .f32) (x2 : Vec F SW2 .f32) (x3 : Vec F SW3 .f32) (x4 : Vec F SW4 .f32) : Vec F SW5 .f32 :=
  View.canon [⟨r3_5, k3_pay1 (View.ld x0 r3_0) (View.ld x1 r3_1) (View.ld x2 r3_2) (View.ld x3 r3_3) (View.ld x4 r3_4)⟩]

/-- The body loads its five inputs whole and stores once over the whole output block: the inputs stay, the output reads the payload. -/
theorem sound_kernel3 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out3_5 x0 x1 x2 x3 x4)) -∗ K ⟨⟩))
      ⊢ wp frame (wpE (defs₀ (F := F)) Variants.none c none) E (cc3__sage_kernel i arg1 harg1 arg2 harg2 arg3 harg3 arg4 harg4 arg5 harg5 arg6 harg6) K := by
  simp only [cc3__sage_kernel_eq_skeleton]; unfold cc3__sage_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- For an input window, what the body finds at a point is what it leaves there. -/
theorem before3 (c : Dev nD) (w : Fin cfg3.W) (hw : (cfg3.win w).isOut = false) (t : Fin cfg3.N) (d) :
    (dat3 V c).before w t d = (dat3 V c).after w t := by
  fin_cases w <;> first
    | exact absurd hw (by decide)
    | exact Dat.before_in_eq_fetched _ _ hw (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp +decide only [before3 V c]
  dsimp only [dat3, Dat.owesAt, Dat.bound]
  change _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply sound_kernel3 c Set.univ
  iframe H0 H1 H2 H3 H4
  isplitl [H5]; · iexists _; iexact H5
  iintro ⟨H0, H1, H2, H3, H4, H5⟩
  iframe

end Cert.KernelIdeal.Hand

end
-- ==== Proof.KI.Reg4.lean ====
import proofs.«408721_j11879879540745_1_alg».proof.Proof.Gen.KernelIdeal.Launch
import proofs.«408721_j11879879540745_1_alg».proof.Proof.Gen.KernelIdeal.Skeleton
import proofs.«408721_j11879879540745_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

local notation "SW0" => S1x256x8192
local notation "SW1" => S8192x256
local notation "SW2" => S1x256
local notation "SW3" => S256x1
local notation "SW4" => S1x1
local notation "SW5" => S1x1x256

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect SW0 := .unit ![0, 0, 0] (SW0).size (by decide)
abbrev r4_1 : Rect SW1 := .unit ![0, 0] (SW1).size (by decide)
abbrev r4_2 : Rect SW2 := .unit ![0, 0] (SW2).size (by decide)
abbrev r4_3 : Rect SW3 := .unit ![0, 0] (SW3).size (by decide)
abbrev r4_4 : Rect SW4 := .unit ![0, 0] (SW4).size (by decide)
abbrev r4_5 : Rect SW5 := .unit ![0, 0, 0] (SW5).size (by decide)

def out4_5 (x0 : Vec F SW0 .f32) (x1 : Vec F SW1 .f32) (x2 : Vec F SW2 .f32) (x3 : Vec F SW3 .f32) (x4 : Vec F SW4 .f32) : Vec F SW5 .f32 :=
  View.canon [⟨r4_5, k4_pay1 (View.ld x0 r4_0) (View.ld x1 r4_1) (View.ld x2 r4_2) (View.ld x3 r4_3) (View.ld x4 r4_4)⟩]

/-- The body loads its five inputs whole and stores once over the whole output block: the inputs stay, the output reads the payload. -/
theorem sound_kernel4 (c : Dev nD) (E : Set ℕ) {i arg1 harg1 arg2 harg2 arg3 harg3 arg4 harg4 arg5 harg5 arg6 harg6 x0 x1 x2 x3 x4}
    {K : PUnit → sProp (MT nD τ sig Unit (Elt F) ℕ (UR sig nD τ) ℕ)} :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(ownsTc c arg1 fullShare x0 ∗ ownsTc c arg2 fullShare x1 ∗ ownsTc c arg3 fullShare x2
            ∗ ownsTc c arg4 fullShare x3 ∗ ownsTc c arg5 fullShare x4
            ∗ ownsTc c arg6 fullShare (out4_5 x0 x1 x2 x3 x4)) -∗ K ⟨⟩))
      ⊢ wp frame (wpE (defs₀ (F := F)) Variants.none c none) E (cc4__mlp1_kernel i arg1 harg1 arg2 harg2 arg3 harg3 arg4 harg4 arg5 harg5 arg6 harg6) K := by
  simp only [cc4__mlp1_kernel_eq_skeleton]; unfold cc4__mlp1_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  unfold ownsTc owns
  iexists _; isplitr
  swap; · iexact H5
  ipureintro
  exact View.read_writes_eq_canon _ _ _ (View.cover_of_tiled _ (SW5).size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- For an input window, what the body finds at a point is what it leaves there. -/
theorem before4 (c : Dev nD) (w : Fin cfg4.W) (hw : (cfg4.win w).isOut = false) (t : Fin cfg4.N) (d) :
    (dat4 V c).before w t d = (dat4 V c).after w t := by
  fin_cases w <;> first
    | exact absurd hw (by decide)
    | exact Dat.before_in_eq_fetched _ _ hw (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp +decide only [before4 V c]
  dsimp only [dat4, Dat.owesAt, Dat.bound]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩⟩
  iapply sound_kernel4 c Set.univ
  iframe H0 H1 H2 H3 H4
  isplitl [H5]; · iexists _; iexact H5
  iintro ⟨H0, H1, H2, H3, H4, H5⟩
  iframe

end Cert.KernelIdeal.Hand

end
-- ==== Proof.KI.Segs.lean ====
import proofs.«408721_j11879879540745_1_alg».proof.Proof.KI.Reg0
import proofs.«408721_j11879879540745_1_alg».proof.Proof.KI.Reg1
import proofs.«408721_j11879879540745_1_alg».proof.Proof.KI.Reg2
import proofs.«408721_j11879879540745_1_alg».proof.Proof.KI.Reg3
import proofs.«408721_j11879879540745_1_alg».proof.Proof.KI.Reg4
import proofs.«408721_j11879879540745_1_alg».proof.Proof.Gen.KernelIdeal.Regions
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev ent0 : (c : Dev nD) → (b : Ref sig .tc) → Buf (Elt F) ((c : Thread nD τ).loc b) := fun c b => V3 m c b

def out0 (c : Dev nD) : Buf (Elt F) ((c : Thread nD τ).loc main_v17) := (dat0 (ent0 m) c).arrAt 5 cfg0.N

def outsA : Outs (F := F) := fun J r c => match J with
  | 4 => Function.update (V3 m c) main_v17 (out0 m c) r
  | _ => V0 m c r

abbrev ent1 : (c : Dev nD) → (b : Ref sig .tc) → Buf (Elt F) ((c : Thread nD τ).loc b) := fun c b => V6 m (outsA m) c b
def out1 (c : Dev nD) : Buf (Elt F) ((c : Thread nD τ).loc main_v25) := (dat1 (ent1 m) c).arrAt 5 cfg1.N

def outsB : Outs (F := F) := fun J r c => match J with
  | 7 => Function.update (V6 m (outsA m) c) main_v25 (out1 m c) r
  | _ => outsA m J r c

abbrev ent2 : (c : Dev nD) → (b : Ref sig .tc) → Buf (Elt F) ((c : Thread nD τ).loc b) := fun c b => V9 m (outsB m) c b
def out2 (c : Dev nD) : Buf (Elt F) ((c : Thread nD τ).loc main_v33) := (dat2 (ent2 m) c).arrAt 5 cfg2.N

def outsC : Outs (F := F) := fun J r c => match J with
  | 10 => Function.update (V9 m (outsB m) c) main_v33 (out2 m c) r
  | _ => outsB m J r c

abbrev ent3 : (c : Dev nD) → (b : Ref sig .tc) → Buf (Elt F) ((c : Thread nD τ).loc b) := fun c b => V12 m (outsC m) c b
def out3 (c : Dev nD) : Buf (Elt F) ((c : Thread nD τ).loc main_v41) := (dat3 (ent3 m) c).arrAt 5 cfg3.N

def outsD : Outs (F := F) := fun J r c => match J with
  | 13 => Function.update (V12 m (outsC m) c) main_v41 (out3 m c) r
  | _ => outsC m J r c

abbrev ent4 : (c : Dev nD) → (b : Ref sig .tc) → Buf (Elt F) ((c : Thread nD τ).loc b) := fun c b => V14 m (outsD m) c b
def out4 (c : Dev nD) : Buf (Elt F) ((c : Thread nD τ).loc main_v45) := (dat4 (ent4 m) c).arrAt 5 cfg4.N

def outs : Outs (F := F) := fun J r c => match J with
  | 15 => Function.update (V14 m (outsD m) c) main_v45 (out4 m c) r
  | _ => outsD m J r c

theorem outs_at4 (c : Dev nD) : outs m 4 main_v17 c = outsA m 4 main_v17 c := rfl
theorem outs_at7 (c : Dev nD) : outs m 7 main_v25 c = outsB m 7 main_v25 c := rfl
theorem outsB_at4 (c : Dev nD) : outsB m 4 main_v17 c = outsA m 4 main_v17 c := rfl
theorem outs_at10 (c : Dev nD) : outs m 10 main_v33 c = outsC m 10 main_v33 c := rfl
theorem outsC_at4 (c : Dev nD) : outsC m 4 main_v17 c = outsA m 4 main_v17 c := rfl
theorem outsC_at7 (c : Dev nD) : outsC m 7 main_v25 c = outsB m 7 main_v25 c := rfl
theorem outs_at13 (c : Dev nD) : outs m 13 main_v41 c = outsD m 13 main_v41 c := rfl
theorem outsD_at4 (c : Dev nD) : outsD m 4 main_v17 c = outsA m 4 main_v17 c := rfl
theorem outsD_at7 (c : Dev nD) : outsD m 7 main_v25 c = outsB m 7 main_v25 c := rfl
theorem outsD_at10 (c : Dev nD) : outsD m 10 main_v33 c = outsC m 10 main_v33 c := rfl

theorem V6_outs (c : Dev nD) : V6 m (outs m) c = V6 m (outsA m) c := by
  simp only [V6, V5, V4, outs_at4]
theorem V9_outs (c : Dev nD) : V9 m (outs m) c = V9 m (outsB m) c := by
  simp only [V9, V8, V7, V6, V5, V4, outs_at4, outs_at7, outsB_at4]
theorem V12_outs (c : Dev nD) : V12 m (outs m) c = V12 m (outsC m) c := by
  simp only [V12, V11, V10, V9, V8, V7, V6, V5, V4, outs_at4, outs_at7, outs_at10, outsC_at4, outsC_at7, outsB_at4]
theorem V14_outs (c : Dev nD) : V14 m (outs m) c = V14 m (outsD m) c := by
  simp only [V14, V13, V12, V11, V10, V9, V8, V7, V6, V5, V4, outs_at4, outs_at7, outs_at10, outs_at13,
    outsD_at4, outsD_at7, outsD_at10, outsC_at4, outsC_at7, outsB_at4]

theorem ent1_outs : (fun (c : Dev nD) (b : Ref sig .tc) => (V6 m (outs m) c b : Buf (Elt F) ((c : Thread nD τ).loc b))) = ent1 m := by
  funext c b; rw [V6_outs]
theorem ent2_outs : (fun (c : Dev nD) (b : Ref sig .tc) => (V9 m (outs m) c b : Buf (Elt F) ((c : Thread nD τ).loc b))) = ent2 m := by
  funext c b; rw [V9_outs]
theorem ent3_outs : (fun (c : Dev nD) (b : Ref sig .tc) => (V12 m (outs m) c b : Buf (Elt F) ((c : Thread nD τ).loc b))) = ent3 m := by
  funext c b; rw [V12_outs]
theorem ent4_outs : (fun (c : Dev nD) (b : Ref sig .tc) => (V14 m (outs m) c b : Buf (Elt F) ((c : Thread nD τ).loc b))) = ent4 m := by
  funext c b; rw [V14_outs]

theorem outs_4 (c : Dev nD) : outs m 4 main_v17 c = (dat0 (fun c b => V3 m c b) c).arrAt 5 cfg0.N :=
  (show Function.update (V3 m c) (main_v17 : DevRef τ sig) (out0 m c) (main_v17 : DevRef τ sig) = out0 m c from Function.update_self _ _ _)

theorem outs_7 (c : Dev nD) : outs m 7 main_v25 c = (dat1 (fun c b => V6 m (outs m) c b) c).arrAt 5 cfg1.N := by
  rw [ent1_outs]; exact (show Function.update (V6 m (outsA m) c) (main_v25 : DevRef τ sig) (out1 m c) (main_v25 : DevRef τ sig) = out1 m c from Function.update_self _ _ _)

theorem outs_10 (c : Dev nD) : outs m 10 main_v33 c = (dat2 (fun c b => V9 m (outs m) c b) c).arrAt 5 cfg2.N := by
  rw [ent2_outs]; exact (show Function.update (V9 m (outsB m) c) (main_v33 : DevRef τ sig) (out2 m c) (main_v33 : DevRef τ sig) = out2 m c from Function.update_self _ _ _)

theorem outs_13 (c : Dev nD) : outs m 13 main_v41 c = (dat3 (fun c b => V12 m (outs m) c b) c).arrAt 5 cfg3.N := by
  rw [ent3_outs]; exact (show Function.update (V12 m (outsC m) c) (main_v41 : DevRef τ sig) (out3 m c) (main_v41 : DevRef τ sig) = out3 m c from Function.update_self _ _ _)

theorem outs_15 (c : Dev nD) : outs m 15 main_v45 c = (dat4 (fun c b => V14 m (outs m) c b) c).arrAt 5 cfg4.N := by
  rw [ent4_outs]; exact (show Function.update (V14 m (outsD m) c) (main_v45 : DevRef τ sig) (out4 m c) (main_v45 : DevRef τ sig) = out4 m c from Function.update_self _ _ _)

def pdats : (p : Fin 5) → (c : Dev nD) → Dat τ (Elt F) Unit ℕ (UR sig nD τ) ℕ (cfgs p) c
  | ⟨0, _⟩ => fun c => dat0 (fun c b => V3 m c b) c
  | ⟨1, _⟩ => fun c => dat1 (fun c b => V6 m (outs m) c b) c
  | ⟨2, _⟩ => fun c => dat2 (fun c b => V9 m (outs m) c b) c
  | ⟨3, _⟩ => fun c => dat3 (fun c b => V12 m (outs m) c b) c
  | ⟨4, _⟩ => fun c => dat4 (fun c b => V14 m (outs m) c b) c

abbrev noPairs : GSem nD τ sig → Finset Unit := fun _ => ∅
abbrev noLevel : GSem nD τ sig → Unit → ℕ := fun _ _ => 0
abbrev rest (c : Dev nD) : sProp 𝕄 := iprop((∃ r, prngReg c r) ∗ ∃ W, owes (c : Thread nD τ) (0 : CellTallies nD τ sig Unit) W)

abbrev rd (W : Valuation τ sig (Elt F)) (c : Dev nD) : (b : Ref sig .tc) → Buf (Elt F) ((c : Thread nD τ).loc b) := fun b => W b

theorem prefHeld_none (p : Fin 5) (c : Dev nD) (q) (T) :
    (Pipeline.prefHeld (Ix := Unit) (Name := ℕ) (U := UR sig nD τ) (Lvl := ℕ) (Val := Elt F) (pcfgs (F := F) p).pre c q T : sProp 𝕄) = BI.emp := by
  unfold Pipeline.prefHeld
  show bigSep (∅ : Finset (Fin 0)) _ = _
  exact BI.bigSep_empty

set_option backward.isDefEq.respectTransparency.types false in
/-- The five regions' records differ only in the region's number, the contents before and after it and the body's run:
    one record, taken at each. -/
def regOf (p : Fin 5) (lf : Pipeline.LaunchFacts (nD := nD) (τ := τ) cfgs p) (Vin Vout : Dev nD → Valuation τ sig (Elt F))
    (hb : ∀ c, BodyObligation (pdats m p c) (defs₀ (F := F)) Variants.none () Set.univ)
    (hq : ∀ c w, (pdats m p c).q w = fullShare)
    (h0 : ∀ c t, (pdats m p c).owed t = 0) (hr : ∀ c t, (pdats m p c).recorded t = Set.univ)
    (hΦ : ∀ c t, (pdats m p c).Φ t = Pipeline.ΦA (cfgs p).spec c)
    (hA : ∀ c w, (pdats m p c).A w = rd (Vin c) c (Pipeline.arrRef (cfgs p).spec w))
    (wo : Fin (cfgs p).W)
    (hin : ∀ w, w ≠ wo → ((cfgs p).win w).isOut = false ∧ Pipeline.arrRef (cfgs p).spec w ≠ Pipeline.arrRef (cfgs p).spec wo)
    (hV : ∀ c, Vout c = Function.update (Vin c) (Pipeline.arrRef (cfgs p).spec wo : DevRef τ sig) ((pdats m p c).arrAt wo (cfgs p).N)) :
    RegionSeg (pcfgs (F := F)) adm (pdats m) () defs₀ Variants.none noPairs noLevel p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPairs noLevel p h0
  pre c := iprop(StableHlo.held (c : Thread nD τ) (Pipeline.ucRefs τ sig) (Vin c) ∗ rest c)
  post c := iprop(StableHlo.held (c : Thread nD τ) (Pipeline.ucRefs τ sig) (Vout c) ∗ rest c)
  X c := iprop(∃ r, prngReg c r)
  Y c := iprop(∃ r, prngReg c r)
  Z c := Pipeline.unscopedRest (Ix := Unit) (Name := ℕ) (U := UR sig nD τ) (Lvl := ℕ) (cfgs p).spec c (rd (Vin c) c)
  hentry c := by
    rw [Pipeline.ownSems0_none, prefHeld_none]
    have hsplit := Pipeline.arrays_of_unscopedBufs (p := p) (pcfgs (F := F)) adm (pdats m) lf.win lf.arr_whole c
      ((pdats m p c).share_full (hq c)) (rd (Vin c) c) (hA c)
    rw [Pipeline.unscopedBufs_held] at hsplit
    unfold Pipeline.Dat.owesAt Pipeline.owesWithin; rw [h0 c 0]
    iintro ⟨⟨Hub, Hp, ⟨%W, HO⟩⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl ((hr c 0).symm ▸ trivial)
      iexact HO
    isplitl [Hp] <;> iassumption
  hin c := by
    rw [hΦ c 0]; unfold Pipeline.ΦA
    iintro ⟨Hp, -, Hr⟩
    isplitl [Hr] <;> iassumption
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (rd (Vin c) c) (rd (Vout c) c) ((pdats m p c).arrAt · (cfgs p).N)
      (fun w => by
        rw [hV c]; by_cases h : w = wo
        · rw [h]; exact (Function.update_self (Pipeline.arrRef (cfgs p).spec wo : DevRef τ sig) _ (Vin c)).symm
        · exact ((pdats m p c).arrAt_in w (hin w h).1 _).trans ((hA c w).trans
            (Function.update_of_ne (StableHlo.devRef_ne_of_ne (hin w h).2) _ _).symm))
      (fun b hb => by
        rw [hV c]; exact Function.update_of_ne (StableHlo.devRef_ne_of_ne fun e =>
          hb (Finset.mem_image.mpr ⟨wo, Finset.mem_univ _, e.symm⟩)) _ _)
    rw [Pipeline.unscopedBufs_held] at hjoin
    unfold Pipeline.Dat.owesAt Pipeline.owesWithin; rw [h0 c (Fin.last _)]
    iintro ⟨Ha, ⟨%W, -, HO⟩, HY, Hrest⟩
    imodintro
    isplitl [Ha Hrest]
    · iapply hjoin; isplitl [Ha] <;> iassumption
    isplitl [HY]; · iexact HY
    iexists W; iexact HO

set_option backward.isDefEq.respectTransparency.types false in
def reg0 : RegionSeg (pcfgs (F := F)) adm (pdats m) () defs₀ Variants.none noPairs noLevel 0 :=
  regOf m 0 launch0 (V3 m) (V4 m (outs m)) (body_obligation0 _) (fun _ _ => rfl) (fun _ _ => rfl) (fun _ _ => rfl) (fun _ _ => rfl)
    (fun _ _ => rfl) 5 (by decide)
    (fun c => congrArg (Function.update (V3 m c) (main_v17 : DevRef τ sig)) (outs_4 m c))
set_option backward.isDefEq.respectTransparency.types false in
def reg1 : RegionSeg (pcfgs (F := F)) adm (pdats m) () defs₀ Variants.none noPairs noLevel 1 :=
  regOf m 1 launch1 (V6 m (outs m)) (V7 m (outs m)) (body_obligation1 _) (fun _ _ => rfl) (fun _ _ => rfl) (fun _ _ => rfl) (fun _ _ => rfl)
    (fun _ _ => rfl) 5 (by decide)
    (fun c => congrArg (Function.update (V6 m (outs m) c) (main_v25 : DevRef τ sig)) (outs_7 m c))
set_option backward.isDefEq.respectTransparency.types false in
def reg2 : RegionSeg (pcfgs (F := F)) adm (pdats m) () defs₀ Variants.none noPairs noLevel 2 :=
  regOf m 2 launch2 (V9 m (outs m)) (V10 m (outs m)) (body_obligation2 _) (fun _ _ => rfl) (fun _ _ => rfl) (fun _ _ => rfl) (fun _ _ => rfl)
    (fun _ _ => rfl) 5 (by decide)
    (fun c => congrArg (Function.update (V9 m (outs m) c) (main_v33 : DevRef τ sig)) (outs_10 m c))
set_option backward.isDefEq.respectTransparency.types false in
def reg3 : RegionSeg (pcfgs (F := F)) adm (pdats m) () defs₀ Variants.none noPairs noLevel 3 :=
  regOf m 3 launch3 (V12 m (outs m)) (V13 m (outs m)) (body_obligation3 _) (fun _ _ => rfl) (fun _ _ => rfl) (fun _ _ => rfl) (fun _ _ => rfl)
    (fun _ _ => rfl) 5 (by decide)
    (fun c => congrArg (Function.update (V12 m (outs m) c) (main_v41 : DevRef τ sig)) (outs_13 m c))
set_option backward.isDefEq.respectTransparency.types false in
def reg4 : RegionSeg (pcfgs (F := F)) adm (pdats m) () defs₀ Variants.none noPairs noLevel 4 :=
  regOf m 4 launch4 (V14 m (outs m)) (V15 m (outs m)) (body_obligation4 _) (fun _ _ => rfl) (fun _ _ => rfl) (fun _ _ => rfl) (fun _ _ => rfl)
    (fun _ _ => rfl) 5 (by decide)
    (fun c => congrArg (Function.update (V14 m (outs m) c) (main_v45 : DevRef τ sig)) (outs_15 m c))

theorem rest_owes (c : Dev nD) :
    (rest (F := F) c) ⊢ (iprop(∃ W, owes (c : Thread nD τ) (0 : CellTallies nD τ sig Unit) W) : sProp 𝕄) := by
  iintro ⟨-, H⟩; iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev u₀ := initOf (Pipeline.cells cfgs cellOf_inj) (Pipeline.launchToks cfgs cellOf_inj)

theorem launch_own : (ownU u₀ : sProp 𝕄)
    ⊢ |={Set.univ}=> iprop(BI.own (emb₁ u₀) ∗ bigSep Finset.univ fun _ : Dev nD => (BI.emp : sProp 𝕄)) := by
  iintro Hu; imodintro
  isplitl [Hu]
  · iapply (show (ownU u₀ : sProp 𝕄) ⊢ BI.own (emb₁ u₀) from .rfl); iexact Hu
  iapply (show (BI.emp : sProp 𝕄) ⊢ bigSep Finset.univ (fun _ : Dev nD => (BI.emp : sProp 𝕄)) from by rw [BI.bigSep_emp_const])
  iempintro

end Cert.KernelIdeal.Hand

end
-- ==== Proof.KI.Run.lean ====
import proofs.«408721_j11879879540745_1_alg».proof.Proof.KI.Segs
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V22 m (outs m) c b) := by
  refine Pipeline.θ_run_regions_kit_dev (pcfgs (F := F)) adm (pdats m) () cellOf_inj emb₁ defs₀ Variants.none noPairs noLevel m ρ main
    (segs m (outs m) Variants.none noPairs noLevel (fun _ => rest) () (pdats m) (reg0 m) (reg1 m) (reg2 m) (reg3 m) (reg4 m))
    (fun c Q => by
      rewrite [main_chain c, Seg.run_eq_chain,
        show ((segs m (outs m) Variants.none noPairs noLevel (fun _ => rest) () (pdats m) (reg0 m) (reg1 m) (reg2 m) (reg3 m) (reg4 m)) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6 ] from rfl]
      exact .rfl)
    (fun c => by simp only [segs, Seg.pipes_host, Seg.pipes_region, Seg.pipes_nil]; decide)
    (O₀ := 0) (hL := fun _ _ => rfl) (G := fun _ => iprop(emp))
    (u₀ := u₀) (hu₀ := launch_own)
    (T₀ := fun c => iprop(StableHlo.held (c : Thread nD τ) (Pipeline.ucRefs τ sig) (V0 m c) ∗ rest c))
    (Tₙ := fun c => StableHlo.held (c : Thread nD τ) (Pipeline.ucRefs τ sig) (V22 m (outs m) c))
    (hch := fun c => ⟨.rfl, .rfl, .rfl, .rfl, .rfl, .rfl, .rfl, .rfl, .rfl, .rfl, .rfl, .rfl, .rfl, .rfl, .rfl, .rfl, .rfl, .rfl, .rfl, .rfl,
      .rfl, .rfl, sep_mono .rfl (rest_owes c)⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V22 m (outs m) c b)
    (hfin := fun c s' => by
      iintro ⟨Hh, HSI⟩
      unfold StableHlo.held
      imodintro
      iapply (pointsTo_read_all (Pipeline.ucRefs τ sig) (fun b => (((c : Thread nD τ)).1, b)) (V22 m (outs m) c) s')
      isplitl [Hh] <;> iassumption)
    (hQ := fun _ h => h)

/-- An argument ends as launched: the last boundary's contents at it are the launch's. -/
theorem kept {r : PUnit × MemSt nD τ sig (Elt F)}
    (h : ∀ c : Dev nD, ∀ b ∈ Pipeline.ucRefs τ sig, r.2.mem (((c : Thread nD τ)).1, b) = V22 m (outs m) c b) (c : Dev nD) (a : Ref sig .tc)
    (ha : ¬ (Proc.devRef .tc a : DevRef τ sig).isScoped) (e : V22 m (outs m) c a = m ((c.tc : Thread nD τ).loc a)) :
    r.2.mem ((c.tc : Thread nD τ).loc a) = m ((c.tc : Thread nD τ).loc a) := (h c _ (mem_uc a ha)).trans e

end Cert.KernelIdeal.Hand

end
-- ==== Proof.RefRun.lean ====
import proofs.«408721_j11879879540745_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev sConcat : List (HloOp τ sig (Elt F)) :=
  [ StableHlo.nary ![main_arg0, main_arg1, main_arg2, main_arg3] main_v0 (fun u => concatenate S65536x128 1 [⟨S65536x32, u 0⟩, ⟨S65536x32, u 1⟩, ⟨S65536x32, u 2⟩, ⟨S65536x32, u 3⟩] concatenates_S65536x32_S65536x32_S65536x32_S65536x32_S65536x128_d1) ]

abbrev sCnt : List (HloOp τ sig (Elt F)) :=
  [ StableHlo.nullary main_cst (constant S_ .f32 0x3F800000#32),
    StableHlo.unary main_cst main_v1 (broadcastInDim S524288 ![] bcast_S_S524288 : (⟨S_, .f32⟩ : BufTy).Contents (Elt F) → (⟨S524288, .f32⟩ : BufTy).Contents (Elt F)),
    StableHlo.nullary main_cst_0 (constant S_ .f32 0x00000000#32),
    StableHlo.unary main_cst_0 main_v2 (broadcastInDim S65536 ![] bcast_S_S65536 : (⟨S_, .f32⟩ : BufTy).Contents (Elt F) → (⟨S65536, .f32⟩ : BufTy).Contents (Elt F)),
    StableHlo.unary main_arg5 main_v3 (broadcastInDim S524288x1 ![0] bcast_S524288_S524288x1_0 : (⟨S524288, .i32⟩ : BufTy).Contents (Elt F) → (⟨S524288x1, .i32⟩ : BufTy).Contents (Elt F)),
    StableHlo.ternary main_v2 main_v3 main_v1 main_v4 ((fun x i u => Host.scatterAdd scatter_S65536_S524288x1_S524288_n_0_0_1 x i u) : (⟨S65536, .f32⟩ : BufTy).Contents (Elt F) → (⟨S524288x1, .i32⟩ : BufTy).Contents (Elt F) → (⟨S524288, .f32⟩ : BufTy).Contents (Elt F) → (⟨S65536, .f32⟩ : BufTy).Contents (Elt F)),
    StableHlo.nullary main_cst_1 (constant S_ .f32 0x3F800000#32),
    StableHlo.unary main_cst_1 main_v5 (broadcastInDim S65536 ![] bcast_S_S65536 : (⟨S_, .f32⟩ : BufTy).Contents (Elt F) → (⟨S65536, .f32⟩ : BufTy).Contents (Elt F)),
    StableHlo.binary main_v4 main_v5 main_v6 (maximumf : (⟨S65536, .f32⟩ : BufTy).Contents (Elt F) → (⟨S65536, .f32⟩ : BufTy).Contents (Elt F) → (⟨S65536, .f32⟩ : BufTy).Contents (Elt F)) ]

abbrev sL1 : List (HloOp τ sig (Elt F)) :=
  [ StableHlo.nullary main_c (constantI S_ 32 0#32),
    StableHlo.unary main_c main_v7 (broadcastInDim S524288 ![] bcast_S_S524288 : (⟨S_, .i32⟩ : BufTy).Contents (Elt F) → (⟨S524288, .i32⟩ : BufTy).Contents (Elt F)),
    StableHlo.binary main_arg4 main_v7 main_v8 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 65536#32),
    StableHlo.unary main_c_2 main_v9 (broadcastInDim S524288 ![] bcast_S_S524288 : (⟨S_, .i32⟩ : BufTy).Contents (Elt F) → (⟨S524288, .i32⟩ : BufTy).Contents (Elt F)),
    StableHlo.binary main_arg4 main_v9 main_v10 (addi : (⟨S524288, .i32⟩ : BufTy).Contents (Elt F) → (⟨S524288, .i32⟩ : BufTy).Contents (Elt F) → (⟨S524288, .i32⟩ : BufTy).Contents (Elt F)),
    StableHlo.ternary main_v8 main_v10 main_arg4 main_v11 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v11 main_v12 (broadcastInDim S524288x1 ![0] bcast_S524288_S524288x1_0 : (⟨S524288, .i32⟩ : BufTy).Contents (Elt F) → (⟨S524288x1, .i32⟩ : BufTy).Contents (Elt F)),
    StableHlo.binary main_v0 main_v12 main_v13 ((fun x i => Host.gather gather_S65536x128_S524288x1_S524288x128_1_0_n_n_0_1_1128 x i) : (⟨S65536x128, .f32⟩ : BufTy).Contents (Elt F) → (⟨S524288x1, .i32⟩ : BufTy).Contents (Elt F) → (⟨S524288x128, .f32⟩ : BufTy).Contents (Elt F)),
    StableHlo.nullary main_cst_3 (constant S_ .f32 0x00000000#32),
    StableHlo.unary main_cst_3 main_v14 (broadcastInDim S65536x128 ![] bcast_S_S65536x128 : (⟨S_, .f32⟩ : BufTy).Contents (Elt F) → (⟨S65536x128, .f32⟩ : BufTy).Contents (Elt F)),
    StableHlo.unary main_arg5 main_v15 (broadcastInDim S524288x1 ![0] bcast_S524288_S524288x1_0 : (⟨S524288, .i32⟩ : BufTy).Contents (Elt F) → (⟨S524288x1, .i32⟩ : BufTy).Contents (Elt F)),
    StableHlo.ternary main_v14 main_v15 main_v13 main_v16 ((fun x i u => Host.scatterAdd scatter_S65536x128_S524288x1_S524288x128_1_0_0_1 x i u) : (⟨S65536x128, .f32⟩ : BufTy).Contents (Elt F) → (⟨S524288x1, .i32⟩ : BufTy).Contents (Elt F) → (⟨S524288x128, .f32⟩ : BufTy).Contents (Elt F) → (⟨S65536x128, .f32⟩ : BufTy).Contents (Elt F)),
    StableHlo.unary main_v6 main_v17 (broadcastInDim S65536x1 ![0] bcast_S65536_S65536x1_0 : (⟨S65536, .f32⟩ : BufTy).Contents (Elt F) → (⟨S65536x1, .f32⟩ : BufTy).Contents (Elt F)),
    StableHlo.unary main_v17 main_v18 (broadcastInDim S65536x128 ![0, 1] bcast_S65536x1_S65536x128_0_1 : (⟨S65536x1, .f32⟩ : BufTy).Contents (Elt F) → (⟨S65536x128, .f32⟩ : BufTy).Contents (Elt F)),
    StableHlo.binary main_v16 main_v18 main_v19 (Host.divf : (⟨S65536x128, .f32⟩ : BufTy).Contents (Elt F) → (⟨S65536x128, .f32⟩ : BufTy).Contents (Elt F) → (⟨S65536x128, .f32⟩ : BufTy).Contents (Elt F)),
    StableHlo.binary main_v19 main_arg6 main_v20 ((fun l r => Host.dotGeneral dot_S65536x128_S128x256_S65536x256_1_0_0_1_n_n none l r) : (⟨S65536x128, .f32⟩ : BufTy).Contents (Elt F) → (⟨S128x256, .f32⟩ : BufTy).Contents (Elt F) → (⟨S65536x256, .f32⟩ : BufTy).Contents (Elt F)),
    StableHlo.binary main_v0 main_arg7 main_v21 ((fun l r => Host.dotGeneral dot_S65536x128_S128x256_S65536x256_1_0_0_1_n_n none l r) : (⟨S65536x128, .f32⟩ : BufTy).Contents (Elt F) → (⟨S128x256, .f32⟩ : BufTy).Contents (Elt F) → (⟨S65536x256, .f32⟩ : BufTy).Contents (Elt F)),
    StableHlo.binary main_v20 main_v21 main_v22 (addf : (⟨S65536x256, .f32⟩ : BufTy).Contents (Elt F) → (⟨S65536x256, .f32⟩ : BufTy).Contents (Elt F) → (⟨S65536x256, .f32⟩ : BufTy).Contents (Elt F)),
    StableHlo.unary main_arg8 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S65536x256 ![0, 1] bcast_S1x256_S65536x256_0_1 : (⟨S1x256, .f32⟩ : BufTy).Contents (Elt F) → (⟨S65536x256, .f32⟩ : BufTy).Contents (Elt F)),
    StableHlo.binary main_v22 main_v24 main_v25 (addf : (⟨S65536x256, .f32⟩ : BufTy).Contents (Elt F) → (⟨S65536x256, .f32⟩ : BufTy).Contents (Elt F) → (⟨S65536x256, .f32⟩ : BufTy).Contents (Elt F)),
    StableHlo.TRef.nullary main_call0.cst (constant S_ .f32 0x00000000#32),
    StableHlo.TRef.unary main_call0.cst main_call0.v0 (broadcastInDim S65536x256 ![] bcast_S_S65536x256),
    StableHlo.TRef.binary (.of main_v25 : StableHlo.TRef sig ⟨S65536x256, .f32⟩) main_call0.v0 main_call0.v1 maximumf ]

abbrev sL2 : List (HloOp τ sig (Elt F)) :=
  [ StableHlo.nullary main_c_4 (constantI S_ 32 0#32),
    StableHlo.unary main_c_4 main_v27 (broadcastInDim S524288 ![] bcast_S_S524288 : (⟨S_, .i32⟩ : BufTy).Contents (Elt F) → (⟨S524288, .i32⟩ : BufTy).Contents (Elt F)),
    StableHlo.binary main_arg4 main_v27 main_v28 (cmpi .slt : (⟨S524288, .i32⟩ : BufTy).Contents (Elt F) → (⟨S524288, .i32⟩ : BufTy).Contents (Elt F) → (⟨S524288, .i1⟩ : BufTy).Contents (Elt F)),
    StableHlo.nullary main_c_5 (constantI S_ 32 65536#32),
    StableHlo.unary main_c_5 main_v29 (broadcastInDim S524288 ![] bcast_S_S524288 : (⟨S_, .i32⟩ : BufTy).Contents (Elt F) → (⟨S524288, .i32⟩ : BufTy).Contents (Elt F)),
    StableHlo.binary main_arg4 main_v29 main_v30 (addi : (⟨S524288, .i32⟩ : BufTy).Contents (Elt F) → (⟨S524288, .i32⟩ : BufTy).Contents (Elt F) → (⟨S524288, .i32⟩ : BufTy).Contents (Elt F)),
    StableHlo.ternary main_v28 main_v30 main_arg4 main_v31 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v31 main_v32 (broadcastInDim S524288x1 ![0] bcast_S524288_S524288x1_0 : (⟨S524288, .i32⟩ : BufTy).Contents (Elt F) → (⟨S524288x1, .i32⟩ : BufTy).Contents (Elt F)),
    StableHlo.binary main_v26 main_v32 main_v33 ((fun x i => Host.gather gather_S65536x256_S524288x1_S524288x256_1_0_n_n_0_1_1256 x i) : (⟨S65536x256, .f32⟩ : BufTy).Contents (Elt F) → (⟨S524288x1, .i32⟩ : BufTy).Contents (Elt F) → (⟨S524288x256, .f32⟩ : BufTy).Contents (Elt F)),
    StableHlo.nullary main_cst_6 (constant S_ .f32 0x00000000#32),
    StableHlo.unary main_cst_6 main_v34 (broadcastInDim S65536x256 ![] bcast_S_S65536x256 : (⟨S_, .f32⟩ : BufTy).Contents (Elt F) → (⟨S65536x256, .f32⟩ : BufTy).Contents (Elt F)),
    StableHlo.unary main_arg5 main_v35 (broadcastInDim S524288x1 ![0] bcast_S524288_S524288x1_0 : (⟨S524288, .i32⟩ : BufTy).Contents (Elt F) → (⟨S524288x1, .i32⟩ : BufTy).Contents (Elt F)),
    StableHlo.ternary main_v34 main_v35 main_v33 main_v36 ((fun x i u => Host.scatterAdd scatter_S65536x256_S524288x1_S524288x256_1_0_0_1 x i u) : (⟨S65536x256, .f32⟩ : BufTy).Contents (Elt F) → (⟨S524288x1, .i32⟩ : BufTy).Contents (Elt F) → (⟨S524288x256, .f32⟩ : BufTy).Contents (Elt F) → (⟨S65536x256, .f32⟩ : BufTy).Contents (Elt F)),
    StableHlo.unary main_v6 main_v37 (broadcastInDim S65536x1 ![0] bcast_S65536_S65536x1_0 : (⟨S65536, .f32⟩ : BufTy).Contents (Elt F) → (⟨S65536x1, .f32⟩ : BufTy).Contents (Elt F)),
    StableHlo.unary main_v37 main_v38 (broadcastInDim S65536x256 ![0, 1] bcast_S65536x1_S65536x256_0_1 : (⟨S65536x1, .f32⟩ : BufTy).Contents (Elt F) → (⟨S65536x256, .f32⟩ : BufTy).Contents (Elt F)),
    StableHlo.binary main_v36 main_v38 main_v39 (Host.divf : (⟨S65536x256, .f32⟩ : BufTy).Contents (Elt F) → (⟨S65536x256, .f32⟩ : BufTy).Contents (Elt F) → (⟨S65536x256, .f32⟩ : BufTy).Contents (Elt F)),
    StableHlo.binary main_v39 main_arg9 main_v40 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v26 main_arg10 main_v41 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v40 main_v41 main_v42 (addf : (⟨S65536x256, .f32⟩ : BufTy).Contents (Elt F) → (⟨S65536x256, .f32⟩ : BufTy).Contents (Elt F) → (⟨S65536x256, .f32⟩ : BufTy).Contents (Elt F)),
    StableHlo.unary main_arg11 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S65536x256 ![0, 1] bcast_S1x256_S65536x256_0_1 : (⟨S1x256, .f32⟩ : BufTy).Contents (Elt F) → (⟨S65536x256, .f32⟩ : BufTy).Contents (Elt F)),
    StableHlo.binary main_v42 main_v44 main_v45 (addf : (⟨S65536x256, .f32⟩ : BufTy).Contents (Elt F) → (⟨S65536x256, .f32⟩ : BufTy).Contents (Elt F) → (⟨S65536x256, .f32⟩ : BufTy).Contents (Elt F)),
    StableHlo.TRef.nullary main_call1.cst (constant S_ .f32 0x00000000#32),
    StableHlo.TRef.unary main_call1.cst main_call1.v0 (broadcastInDim S65536x256 ![] bcast_S_S65536x256),
    StableHlo.TRef.binary (.of main_v45 : StableHlo.TRef sig ⟨S65536x256, .f32⟩) main_call1.v0 main_call1.v1 maximumf ]

abbrev sL3 : List (HloOp τ sig (Elt F)) :=
  [ StableHlo.nullary main_c_7 (constantI S_ 32 0#32),
    StableHlo.unary main_c_7 main_v47 (broadcastInDim S524288 ![] bcast_S_S524288 : (⟨S_, .i32⟩ : BufTy).Contents (Elt F) → (⟨S524288, .i32⟩ : BufTy).Contents (Elt F)),
    StableHlo.binary main_arg4 main_v47 main_v48 (cmpi .slt : (⟨S524288, .i32⟩ : BufTy).Contents (Elt F) → (⟨S524288, .i32⟩ : BufTy).Contents (Elt F) → (⟨S524288, .i1⟩ : BufTy).Contents (Elt F)),
    StableHlo.nullary main_c_8 (constantI S_ 32 65536#32),
    StableHlo.unary main_c_8 main_v49 (broadcastInDim S524288 ![] bcast_S_S524288 : (⟨S_, .i32⟩ : BufTy).Contents (Elt F) → (⟨S524288, .i32⟩ : BufTy).Contents (Elt F)),
    StableHlo.binary main_arg4 main_v49 main_v50 (addi : (⟨S524288, .i32⟩ : BufTy).Contents (Elt F) → (⟨S524288, .i32⟩ : BufTy).Contents (Elt F) → (⟨S524288, .i32⟩ : BufTy).Contents (Elt F)),
    StableHlo.ternary main_v48 main_v50 main_arg4 main_v51 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v51 main_v52 (broadcastInDim S524288x1 ![0] bcast_S524288_S524288x1_0 : (⟨S524288, .i32⟩ : BufTy).Contents (Elt F) → (⟨S524288x1, .i32⟩ : BufTy).Contents (Elt F)),
    StableHlo.binary main_v46 main_v52 main_v53 ((fun x i => Host.gather gather_S65536x256_S524288x1_S524288x256_1_0_n_n_0_1_1256 x i) : (⟨S65536x256, .f32⟩ : BufTy).Contents (Elt F) → (⟨S524288x1, .i32⟩ : BufTy).Contents (Elt F) → (⟨S524288x256, .f32⟩ : BufTy).Contents (Elt F)),
    StableHlo.nullary main_cst_9 (constant S_ .f32 0x00000000#32),
    StableHlo.unary main_cst_9 main_v54 (broadcastInDim S65536x256 ![] bcast_S_S65536x256 : (⟨S_, .f32⟩ : BufTy).Contents (Elt F) → (⟨S65536x256, .f32⟩ : BufTy).Contents (Elt F)),
    StableHlo.unary main_arg5 main_v55 (broadcastInDim S524288x1 ![0] bcast_S524288_S524288x1_0 : (⟨S524288, .i32⟩ : BufTy).Contents (Elt F) → (⟨S524288x1, .i32⟩ : BufTy).Contents (Elt F)),
    StableHlo.ternary main_v54 main_v55 main_v53 main_v56 ((fun x i u => Host.scatterAdd scatter_S65536x256_S524288x1_S524288x256_1_0_0_1 x i u) : (⟨S65536x256, .f32⟩ : BufTy).Contents (Elt F) → (⟨S524288x1, .i32⟩ : BufTy).Contents (Elt F) → (⟨S524288x256, .f32⟩ : BufTy).Contents (Elt F) → (⟨S65536x256, .f32⟩ : BufTy).Contents (Elt F)),
    StableHlo.unary main_v6 main_v57 (broadcastInDim S65536x1 ![0] bcast_S65536_S65536x1_0 : (⟨S65536, .f32⟩ : BufTy).Contents (Elt F) → (⟨S65536x1, .f32⟩ : BufTy).Contents (Elt F)),
    StableHlo.unary main_v57 main_v58 (broadcastInDim S65536x256 ![0, 1] bcast_S65536x1_S65536x256_0_1 : (⟨S65536x1, .f32⟩ : BufTy).Contents (Elt F) → (⟨S65536x256, .f32⟩ : BufTy).Contents (Elt F)),
    StableHlo.binary main_v56 main_v58 main_v59 (Host.divf : (⟨S65536x256, .f32⟩ : BufTy).Contents (Elt F) → (⟨S65536x256, .f32⟩ : BufTy).Contents (Elt F) → (⟨S65536x256, .f32⟩ : BufTy).Contents (Elt F)),
    StableHlo.binary main_v59 main_arg12 main_v60 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v46 main_arg13 main_v61 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v60 main_v61 main_v62 (addf : (⟨S65536x256, .f32⟩ : BufTy).Contents (Elt F) → (⟨S65536x256, .f32⟩ : BufTy).Contents (Elt F) → (⟨S65536x256, .f32⟩ : BufTy).Contents (Elt F)),
    StableHlo.unary main_arg14 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S65536x256 ![0, 1] bcast_S1x256_S65536x256_0_1 : (⟨S1x256, .f32⟩ : BufTy).Contents (Elt F) → (⟨S65536x256, .f32⟩ : BufTy).Contents (Elt F)),
    StableHlo.binary main_v62 main_v64 main_v65 (addf : (⟨S65536x256, .f32⟩ : BufTy).Contents (Elt F) → (⟨S65536x256, .f32⟩ : BufTy).Contents (Elt F) → (⟨S65536x256, .f32⟩ : BufTy).Contents (Elt F)),
    StableHlo.TRef.nullary main_call2.cst (constant S_ .f32 0x00000000#32),
    StableHlo.TRef.unary main_call2.cst main_call2.v0 (broadcastInDim S65536x256 ![] bcast_S_S65536x256),
    StableHlo.TRef.binary (.of main_v65 : StableHlo.TRef sig ⟨S65536x256, .f32⟩) main_call2.v0 main_call2.v1 maximumf ]

abbrev sL4 : List (HloOp τ sig (Elt F)) :=
  [ StableHlo.nullary main_c_10 (constantI S_ 32 0#32),
    StableHlo.unary main_c_10 main_v67 (broadcastInDim S524288 ![] bcast_S_S524288 : (⟨S_, .i32⟩ : BufTy).Contents (Elt F) → (⟨S524288, .i32⟩ : BufTy).Contents (Elt F)),
    StableHlo.binary main_arg4 main_v67 main_v68 (cmpi .slt : (⟨S524288, .i32⟩ : BufTy).Contents (Elt F) → (⟨S524288, .i32⟩ : BufTy).Contents (Elt F) → (⟨S524288, .i1⟩ : BufTy).Contents (Elt F)),
    StableHlo.nullary main_c_11 (constantI S_ 32 65536#32),
    StableHlo.unary main_c_11 main_v69 (broadcastInDim S524288 ![] bcast_S_S524288 : (⟨S_, .i32⟩ : BufTy).Contents (Elt F) → (⟨S524288, .i32⟩ : BufTy).Contents (Elt F)),
    StableHlo.binary main_arg4 main_v69 main_v70 (addi : (⟨S524288, .i32⟩ : BufTy).Contents (Elt F) → (⟨S524288, .i32⟩ : BufTy).Contents (Elt F) → (⟨S524288, .i32⟩ : BufTy).Contents (Elt F)),
    StableHlo.ternary main_v68 main_v70 main_arg4 main_v71 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v71 main_v72 (broadcastInDim S524288x1 ![0] bcast_S524288_S524288x1_0 : (⟨S524288, .i32⟩ : BufTy).Contents (Elt F) → (⟨S524288x1, .i32⟩ : BufTy).Contents (Elt F)),
    StableHlo.binary main_v66 main_v72 main_v73 ((fun x i => Host.gather gather_S65536x256_S524288x1_S524288x256_1_0_n_n_0_1_1256 x i) : (⟨S65536x256, .f32⟩ : BufTy).Contents (Elt F) → (⟨S524288x1, .i32⟩ : BufTy).Contents (Elt F) → (⟨S524288x256, .f32⟩ : BufTy).Contents (Elt F)),
    StableHlo.nullary main_cst_12 (constant S_ .f32 0x00000000#32),
    StableHlo.unary main_cst_12 main_v74 (broadcastInDim S65536x256 ![] bcast_S_S65536x256 : (⟨S_, .f32⟩ : BufTy).Contents (Elt F) → (⟨S65536x256, .f32⟩ : BufTy).Contents (Elt F)),
    StableHlo.unary main_arg5 main_v75 (broadcastInDim S524288x1 ![0] bcast_S524288_S524288x1_0 : (⟨S524288, .i32⟩ : BufTy).Contents (Elt F) → (⟨S524288x1, .i32⟩ : BufTy).Contents (Elt F)),
    StableHlo.ternary main_v74 main_v75 main_v73 main_v76 ((fun x i u => Host.scatterAdd scatter_S65536x256_S524288x1_S524288x256_1_0_0_1 x i u) : (⟨S65536x256, .f32⟩ : BufTy).Contents (Elt F) → (⟨S524288x1, .i32⟩ : BufTy).Contents (Elt F) → (⟨S524288x256, .f32⟩ : BufTy).Contents (Elt F) → (⟨S65536x256, .f32⟩ : BufTy).Contents (Elt F)),
    StableHlo.unary main_v6 main_v77 (broadcastInDim S65536x1 ![0] bcast_S65536_S65536x1_0 : (⟨S65536, .f32⟩ : BufTy).Contents (Elt F) → (⟨S65536x1, .f32⟩ : BufTy).Contents (Elt F)),
    StableHlo.unary main_v77 main_v78 (broadcastInDim S65536x256 ![0, 1] bcast_S65536x1_S65536x256_0_1 : (⟨S65536x1, .f32⟩ : BufTy).Contents (Elt F) → (⟨S65536x256, .f32⟩ : BufTy).Contents (Elt F)),
    StableHlo.binary main_v76 main_v78 main_v79 (Host.divf : (⟨S65536x256, .f32⟩ : BufTy).Contents (Elt F) → (⟨S65536x256, .f32⟩ : BufTy).Contents (Elt F) → (⟨S65536x256, .f32⟩ : BufTy).Contents (Elt F)),
    StableHlo.binary main_v79 main_arg15 main_v80 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v66 main_arg16 main_v81 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v80 main_v81 main_v82 (addf : (⟨S65536x256, .f32⟩ : BufTy).Contents (Elt F) → (⟨S65536x256, .f32⟩ : BufTy).Contents (Elt F) → (⟨S65536x256, .f32⟩ : BufTy).Contents (Elt F)),
    StableHlo.unary main_arg17 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S65536x256 ![0, 1] bcast_S1x256_S65536x256_0_1 : (⟨S1x256, .f32⟩ : BufTy).Contents (Elt F) → (⟨S65536x256, .f32⟩ : BufTy).Contents (Elt F)),
    StableHlo.binary main_v82 main_v84 main_v85 (addf : (⟨S65536x256, .f32⟩ : BufTy).Contents (Elt F) → (⟨S65536x256, .f32⟩ : BufTy).Contents (Elt F) → (⟨S65536x256, .f32⟩ : BufTy).Contents (Elt F)),
    StableHlo.TRef.nullary main_call3.cst (constant S_ .f32 0x00000000#32),
    StableHlo.TRef.unary main_call3.cst main_call3.v0 (broadcastInDim S65536x256 ![] bcast_S_S65536x256),
    StableHlo.TRef.binary (.of main_v85 : StableHlo.TRef sig ⟨S65536x256, .f32⟩) main_call3.v0 main_call3.v1 maximumf ]

abbrev sMlp : List (HloOp τ sig (Elt F)) :=
  [ StableHlo.reshape main_v86 main_v87 rfl shapeCasts_S65536x256_S8x256x8192,
    StableHlo.binary main_v87 main_arg18 main_v88 ((fun l r => Host.dotGeneral dot_S8x256x8192_S8192x256_S8x256x256_2_0_01_1_n_n none l r) : (⟨S8x256x8192, .f32⟩ : BufTy).Contents (Elt F) → (⟨S8192x256, .f32⟩ : BufTy).Contents (Elt F) → (⟨S8x256x256, .f32⟩ : BufTy).Contents (Elt F)),
    StableHlo.unary main_arg19 main_v89 (broadcastInDim S1x1x256 ![2] bcast_S256_S1x1x256_2 : (⟨S256, .f32⟩ : BufTy).Contents (Elt F) → (⟨S1x1x256, .f32⟩ : BufTy).Contents (Elt F)),
    StableHlo.unary main_v89 main_v90 (broadcastInDim S8x256x256 ![0, 1, 2] bcast_S1x1x256_S8x256x256_0_1_2 : (⟨S1x1x256, .f32⟩ : BufTy).Contents (Elt F) → (⟨S8x256x256, .f32⟩ : BufTy).Contents (Elt F)),
    StableHlo.binary main_v88 main_v90 main_v91 (addf : (⟨S8x256x256, .f32⟩ : BufTy).Contents (Elt F) → (⟨S8x256x256, .f32⟩ : BufTy).Contents (Elt F) → (⟨S8x256x256, .f32⟩ : BufTy).Contents (Elt F)),
    StableHlo.TRef.nullary main_call4.cst (constant S_ .f32 0x00000000#32),
    StableHlo.TRef.unary main_call4.cst main_call4.v0 (broadcastInDim S8x256x256 ![] bcast_S_S8x256x256),
    StableHlo.TRef.binary (.of main_v91 : StableHlo.TRef sig ⟨S8x256x256, .f32⟩) main_call4.v0 main_call4.v1 maximumf,
    StableHlo.binary main_v92 main_arg20 main_v93 ((fun l r => Host.dotGeneral dot_S8x256x256_S256x1_S8x256x1_2_0_01_1_n_n none l r) : (⟨S8x256x256, .f32⟩ : BufTy).Contents (Elt F) → (⟨S256x1, .f32⟩ : BufTy).Contents (Elt F) → (⟨S8x256x1, .f32⟩ : BufTy).Contents (Elt F)),
    StableHlo.unary main_arg21 main_v94 (broadcastInDim S1x1x1 ![2] bcast_S1_S1x1x1_2 : (⟨S1, .f32⟩ : BufTy).Contents (Elt F) → (⟨S1x1x1, .f32⟩ : BufTy).Contents (Elt F)),
    StableHlo.unary main_v94 main_v95 (broadcastInDim S8x256x1 ![0, 1, 2] bcast_S1x1x1_S8x256x1_0_1_2 : (⟨S1x1x1, .f32⟩ : BufTy).Contents (Elt F) → (⟨S8x256x1, .f32⟩ : BufTy).Contents (Elt F)),
    StableHlo.binary main_v93 main_v95 main_v96 (addf : (⟨S8x256x1, .f32⟩ : BufTy).Contents (Elt F) → (⟨S8x256x1, .f32⟩ : BufTy).Contents (Elt F) → (⟨S8x256x1, .f32⟩ : BufTy).Contents (Elt F)),
    StableHlo.reshape main_v96 main_v97 rfl shapeCasts_S8x256x1_S8x256 ]

abbrev sNorm : List (HloOp τ sig (Elt F)) :=
  [ StableHlo.nullary main_cst_13 (constant S_ .f32 0x00000000#32),
    StableHlo.binary main_v97 main_cst_13 main_v98 ((fun x v => Host.reduceAdd x v reducesTo_S8x256_S256_d0 h_S_) : (⟨S8x256, .f32⟩ : BufTy).Contents (Elt F) → (⟨S_, .f32⟩ : BufTy).Contents (Elt F) → (⟨S256, .f32⟩ : BufTy).Contents (Elt F)),
    StableHlo.nullary main_cst_14 (constant S_ .f32 0x41000000#32),
    StableHlo.unary main_cst_14 main_v99 (broadcastInDim S256 ![] bcast_S_S256 : (⟨S_, .f32⟩ : BufTy).Contents (Elt F) → (⟨S256, .f32⟩ : BufTy).Contents (Elt F)),
    StableHlo.binary main_v98 main_v99 main_v100 (Host.divf : (⟨S256, .f32⟩ : BufTy).Contents (Elt F) → (⟨S256, .f32⟩ : BufTy).Contents (Elt F) → (⟨S256, .f32⟩ : BufTy).Contents (Elt F)),
    StableHlo.nullary main_c_15 (constantI S_ 32 0#32),
    StableHlo.TRef.nullary main_call5.cst (constant S_ .f32 0x00000000#32),
    StableHlo.TRef.binary (.of main_v97 : StableHlo.TRef sig ⟨S8x256, .f32⟩) main_call5.cst main_call5.v0 (fun x v => Host.reduceAdd x v reducesTo_S8x256_S256_d0 h_S_),
    StableHlo.TRef.unary main_call5.v0 main_call5.v1 (broadcastInDim S1x256 ![1] bcast_S256_S1x256_1),
    StableHlo.TRef.nullary main_call5.cst_0 (constant S_ .f32 0x41000000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S8x256 ![0, 1] bcast_S1x256_S8x256_0_1),
    StableHlo.TRef.binary (.of main_v97 : StableHlo.TRef sig ⟨S8x256, .f32⟩) main_call5.v4 main_call5.v5 subf,
    StableHlo.TRef.binary main_call5.v5 main_call5.v5 main_call5.v6 mulf,
    StableHlo.TRef.unary (.of main_c_15 : StableHlo.TRef sig ⟨S_, .i32⟩) main_call5.v7 (sitofp .f32),
    StableHlo.TRef.nullary main_call5.cst_1 (constant S_ .f32 0x41000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S8x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b) ]

abbrev sHead : List (HloOp τ sig (Elt F)) :=
  [ StableHlo.unary main_v100 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S8x256 ![0, 1] bcast_S1x256_S8x256_0_1 : (⟨S1x256, .f32⟩ : BufTy).Contents (Elt F) → (⟨S8x256, .f32⟩ : BufTy).Contents (Elt F)),
    StableHlo.binary main_v97 main_v103 main_v104 (subf : (⟨S8x256, .f32⟩ : BufTy).Contents (Elt F) → (⟨S8x256, .f32⟩ : BufTy).Contents (Elt F) → (⟨S8x256, .f32⟩ : BufTy).Contents (Elt F)),
    StableHlo.nullary main_cst_16 (constant S_ .f32 0x3727C5AC#32),
    StableHlo.unary main_cst_16 main_v105 (broadcastInDim S256 ![] bcast_S_S256 : (⟨S_, .f32⟩ : BufTy).Contents (Elt F) → (⟨S256, .f32⟩ : BufTy).Contents (Elt F)),
    StableHlo.binary main_v101 main_v105 main_v106 (addf : (⟨S256, .f32⟩ : BufTy).Contents (Elt F) → (⟨S256, .f32⟩ : BufTy).Contents (Elt F) → (⟨S256, .f32⟩ : BufTy).Contents (Elt F)),
    StableHlo.unary main_v106 main_v107 (Host.sqrt : (⟨S256, .f32⟩ : BufTy).Contents (Elt F) → (⟨S256, .f32⟩ : BufTy).Contents (Elt F)),
    StableHlo.unary main_v107 main_v108 (broadcastInDim S1x256 ![1] bcast_S256_S1x256_1 : (⟨S256, .f32⟩ : BufTy).Contents (Elt F) → (⟨S1x256, .f32⟩ : BufTy).Contents (Elt F)),
    StableHlo.unary main_v108 main_v109 (broadcastInDim S8x256 ![0, 1] bcast_S1x256_S8x256_0_1 : (⟨S1x256, .f32⟩ : BufTy).Contents (Elt F) → (⟨S8x256, .f32⟩ : BufTy).Contents (Elt F)),
    StableHlo.binary main_v104 main_v109 main_v110 (Host.divf : (⟨S8x256, .f32⟩ : BufTy).Contents (Elt F) → (⟨S8x256, .f32⟩ : BufTy).Contents (Elt F) → (⟨S8x256, .f32⟩ : BufTy).Contents (Elt F)),
    StableHlo.unary main_arg22 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S8x256 ![0, 1] bcast_S1x256_S8x256_0_1 : (⟨S1x256, .f32⟩ : BufTy).Contents (Elt F) → (⟨S8x256, .f32⟩ : BufTy).Contents (Elt F)),
    StableHlo.binary main_v110 main_v112 main_v113 (mulf : (⟨S8x256, .f32⟩ : BufTy).Contents (Elt F) → (⟨S8x256, .f32⟩ : BufTy).Contents (Elt F) → (⟨S8x256, .f32⟩ : BufTy).Contents (Elt F)),
    StableHlo.unary main_arg23 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S8x256 ![0, 1] bcast_S1x256_S8x256_0_1 : (⟨S1x256, .f32⟩ : BufTy).Contents (Elt F) → (⟨S8x256, .f32⟩ : BufTy).Contents (Elt F)),
    StableHlo.binary main_v113 main_v115 main_v116 (addf : (⟨S8x256, .f32⟩ : BufTy).Contents (Elt F) → (⟨S8x256, .f32⟩ : BufTy).Contents (Elt F) → (⟨S8x256, .f32⟩ : BufTy).Contents (Elt F)),
    StableHlo.TRef.nullary main_call6.cst (constant S_ .f32 0x00000000#32),
    StableHlo.TRef.unary main_call6.cst main_call6.v0 (broadcastInDim S8x256 ![] bcast_S_S8x256),
    StableHlo.TRef.binary (.of main_v116 : StableHlo.TRef sig ⟨S8x256, .f32⟩) main_call6.v0 main_call6.v1 maximumf,
    StableHlo.binary main_v117 main_arg24 main_v118 ((fun l r => Host.dotGeneral dot_S8x256_S256x256_S8x256_1_0_0_1_n_n none l r) : (⟨S8x256, .f32⟩ : BufTy).Contents (Elt F) → (⟨S256x256, .f32⟩ : BufTy).Contents (Elt F) → (⟨S8x256, .f32⟩ : BufTy).Contents (Elt F)),
    StableHlo.unary main_arg25 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S8x256 ![0, 1] bcast_S1x256_S8x256_0_1 : (⟨S1x256, .f32⟩ : BufTy).Contents (Elt F) → (⟨S8x256, .f32⟩ : BufTy).Contents (Elt F)),
    StableHlo.binary main_v118 main_v120 main_v121 (addf : (⟨S8x256, .f32⟩ : BufTy).Contents (Elt F) → (⟨S8x256, .f32⟩ : BufTy).Contents (Elt F) → (⟨S8x256, .f32⟩ : BufTy).Contents (Elt F)),
    StableHlo.TRef.nullary main_call7.cst (constant S_ .f32 0x00000000#32),
    StableHlo.TRef.unary main_call7.cst main_call7.v0 (broadcastInDim S8x256 ![] bcast_S_S8x256),
    StableHlo.TRef.binary (.of main_v121 : StableHlo.TRef sig ⟨S8x256, .f32⟩) main_call7.v0 main_call7.v1 maximumf,
    StableHlo.binary main_v122 main_arg26 main_v123 ((fun l r => Host.dotGeneral dot_S8x256_S256x8_S8x8_1_0_0_1_n_n none l r) : (⟨S8x256, .f32⟩ : BufTy).Contents (Elt F) → (⟨S256x8, .f32⟩ : BufTy).Contents (Elt F) → (⟨S8x8, .f32⟩ : BufTy).Contents (Elt F)),
    StableHlo.unary main_arg27 main_v124 (broadcastInDim S1x8 ![1] bcast_S8_S1x8_1 : (⟨S8, .f32⟩ : BufTy).Contents (Elt F) → (⟨S1x8, .f32⟩ : BufTy).Contents (Elt F)),
    StableHlo.unary main_v124 main_v125 (broadcastInDim S8x8 ![0, 1] bcast_S1x8_S8x8_0_1 : (⟨S1x8, .f32⟩ : BufTy).Contents (Elt F) → (⟨S8x8, .f32⟩ : BufTy).Contents (Elt F)),
    StableHlo.binary main_v123 main_v125 main_v126 (addf : (⟨S8x8, .f32⟩ : BufTy).Contents (Elt F) → (⟨S8x8, .f32⟩ : BufTy).Contents (Elt F) → (⟨S8x8, .f32⟩ : BufTy).Contents (Elt F)) ]

abbrev ops : List (HloOp τ sig (Elt F)) :=
  sConcat ++ (sCnt ++ (sL1 ++ (sL2 ++ (sL3 ++ (sL4 ++ (sMlp ++ (sNorm ++ (sHead))))))))

set_option maxRecDepth 8192 in
set_option maxHeartbeats 4000000 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of a list touches TensorCore references only. -/
abbrev Sub (l : List (HloOp τ sig (Elt F))) : Prop := l.Forall fun op => op.bufs ⊆ tcRefs τ sig

theorem stage_sub : Sub (F := F) sConcat ∧ Sub (F := F) sCnt ∧ Sub (F := F) sL1 ∧ Sub (F := F) sL2 ∧ Sub (F := F) sL3 ∧ Sub (F := F) sL4
    ∧ Sub (F := F) sMlp ∧ Sub (F := F) sNorm ∧ Sub (F := F) sHead := by
  refine ⟨?_, ?_, ?_, ?_, ?_, ?_, ?_, ?_, ?_⟩ <;>
    simp only [Sub, List.Forall, nullary_bufs_sub, unary_bufs_sub, binary_bufs_sub, ternary_bufs_sub, reshape_bufs_sub, nary_bufs_sub, and_self]

theorem ops_sub : (ops : List (HloOp τ sig (Elt F))).Forall fun op => op.bufs ⊆ tcRefs τ sig :=
  List.forall_iff_forall_mem.mpr fun op h => by
    simp only [ops, List.mem_append] at h
    obtain ⟨h0, h1, h2, h3, h4, h5, h6, h7, h8⟩ := stage_sub (F := F)
    rcases h with h | h | h | h | h | h | h | h | h
    exacts [List.forall_iff_forall_mem.mp h0 op h, List.forall_iff_forall_mem.mp h1 op h, List.forall_iff_forall_mem.mp h2 op h,
      List.forall_iff_forall_mem.mp h3 op h, List.forall_iff_forall_mem.mp h4 op h, List.forall_iff_forall_mem.mp h5 op h,
      List.forall_iff_forall_mem.mp h6 op h, List.forall_iff_forall_mem.mp h7 op h, List.forall_iff_forall_mem.mp h8 op h]

theorem ops_fresh : ∀ op ∈ (ops : List (HloOp τ sig (Elt F))), op.fresh = ∅ := fun op h => by
  simp only [ops, List.mem_append] at h
  rcases h with h | h | h | h | h | h | h | h | h <;>
    ((repeat (cases h with | head => rfl | tail _ h => ?_)); exact nomatch h)

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.RefStages.lean ====
import proofs.«408721_j11879879540745_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

local notation:max "𝒞[" T "]" => BufTy.Contents (Elt F) T

def rConcat (a0 : 𝒞[⟨S65536x32, .f32⟩]) (a1 : 𝒞[⟨S65536x32, .f32⟩]) (a2 : 𝒞[⟨S65536x32, .f32⟩]) (a3 : 𝒞[⟨S65536x32, .f32⟩]) : 𝒞[⟨S65536x128, .f32⟩] :=
  (concatenate
    S65536x128
    1
    [⟨S65536x32, a0⟩, ⟨S65536x32, a1⟩, ⟨S65536x32, a2⟩, ⟨S65536x32, a3⟩]
    concatenates_S65536x32_S65536x32_S65536x32_S65536x32_S65536x128_d1
    : 𝒞[⟨S65536x128, .f32⟩])

def rCnt (dst : 𝒞[⟨S524288, .i32⟩]) : 𝒞[⟨S65536, .f32⟩] :=
  ((maximumf : 𝒞[⟨S65536, .f32⟩] → 𝒞[⟨S65536, .f32⟩] → 𝒞[⟨S65536, .f32⟩])
    (Host.scatterAdd
      scatter_S65536_S524288x1_S524288_n_0_0_1
      ((broadcastInDim S65536 ![] bcast_S_S65536 : 𝒞[⟨S_, .f32⟩] → 𝒞[⟨S65536, .f32⟩])
        (constant S_ .f32 0x00000000#32 : 𝒞[⟨S_, .f32⟩]))
      ((broadcastInDim S524288x1 ![0] bcast_S524288_S524288x1_0 : 𝒞[⟨S524288, .i32⟩] → 𝒞[⟨S524288x1, .i32⟩])
        dst)
      ((broadcastInDim S524288 ![] bcast_S_S524288 : 𝒞[⟨S_, .f32⟩] → 𝒞[⟨S524288, .f32⟩])
        (constant S_ .f32 0x3F800000#32 : 𝒞[⟨S_, .f32⟩]))
      : 𝒞[⟨S65536, .f32⟩])
    ((broadcastInDim S65536 ![] bcast_S_S65536 : 𝒞[⟨S_, .f32⟩] → 𝒞[⟨S65536, .f32⟩])
      (constant S_ .f32 0x3F800000#32 : 𝒞[⟨S_, .f32⟩])))

def rAgg128 (H : 𝒞[⟨S65536x128, .f32⟩]) (cnt : 𝒞[⟨S65536, .f32⟩]) (src : 𝒞[⟨S524288, .i32⟩]) (dst : 𝒞[⟨S524288, .i32⟩]) : 𝒞[⟨S65536x128, .f32⟩] :=
  ((Host.divf : 𝒞[⟨S65536x128, .f32⟩] → 𝒞[⟨S65536x128, .f32⟩] → 𝒞[⟨S65536x128, .f32⟩])
    (Host.scatterAdd
      scatter_S65536x128_S524288x1_S524288x128_1_0_0_1
      ((broadcastInDim S65536x128 ![] bcast_S_S65536x128 : 𝒞[⟨S_, .f32⟩] → 𝒞[⟨S65536x128, .f32⟩])
        (constant S_ .f32 0x00000000#32 : 𝒞[⟨S_, .f32⟩]))
      ((broadcastInDim S524288x1 ![0] bcast_S524288_S524288x1_0 : 𝒞[⟨S524288, .i32⟩] → 𝒞[⟨S524288x1, .i32⟩])
        dst)
      (Host.gather
        gather_S65536x128_S524288x1_S524288x128_1_0_n_n_0_1_1128
        H
        ((broadcastInDim
           S524288x1
           ![0]
           bcast_S524288_S524288x1_0
           : 𝒞[⟨S524288, .i32⟩] → 𝒞[⟨S524288x1, .i32⟩])
          ((select : 𝒞[⟨S524288, .i1⟩] → 𝒞[⟨S524288, .i32⟩] → 𝒞[⟨S524288, .i32⟩] → 𝒞[⟨S524288, .i32⟩])
            ((cmpi .slt : 𝒞[⟨S524288, .i32⟩] → 𝒞[⟨S524288, .i32⟩] → 𝒞[⟨S524288, .i1⟩])
              src
              ((broadcastInDim S524288 ![] bcast_S_S524288 : 𝒞[⟨S_, .i32⟩] → 𝒞[⟨S524288, .i32⟩])
                (constantI S_ 32 0#32 : 𝒞[⟨S_, .i32⟩])))
            ((addi : 𝒞[⟨S524288, .i32⟩] → 𝒞[⟨S524288, .i32⟩] → 𝒞[⟨S524288, .i32⟩])
              src
              ((broadcastInDim S524288 ![] bcast_S_S524288 : 𝒞[⟨S_, .i32⟩] → 𝒞[⟨S524288, .i32⟩])
                (constantI S_ 32 65536#32 : 𝒞[⟨S_, .i32⟩])))
            src))
        : 𝒞[⟨S524288x128, .f32⟩])
      : 𝒞[⟨S65536x128, .f32⟩])
    ((broadcastInDim
       S65536x128
       ![0, 1]
       bcast_S65536x1_S65536x128_0_1
       : 𝒞[⟨S65536x1, .f32⟩] → 𝒞[⟨S65536x128, .f32⟩])
      ((broadcastInDim S65536x1 ![0] bcast_S65536_S65536x1_0 : 𝒞[⟨S65536, .f32⟩] → 𝒞[⟨S65536x1, .f32⟩]) cnt)))

def rDense128 (A : 𝒞[⟨S65536x128, .f32⟩]) (H : 𝒞[⟨S65536x128, .f32⟩]) (Wl : 𝒞[⟨S128x256, .f32⟩]) (Wr : 𝒞[⟨S128x256, .f32⟩]) (b : 𝒞[⟨S256, .f32⟩]) : 𝒞[⟨S65536x256, .f32⟩] :=
  ((maximumf : 𝒞[⟨S65536x256, .f32⟩] → 𝒞[⟨S65536x256, .f32⟩] → 𝒞[⟨S65536x256, .f32⟩])
    ((addf : 𝒞[⟨S65536x256, .f32⟩] → 𝒞[⟨S65536x256, .f32⟩] → 𝒞[⟨S65536x256, .f32⟩])
      ((addf : 𝒞[⟨S65536x256, .f32⟩] → 𝒞[⟨S65536x256, .f32⟩] → 𝒞[⟨S65536x256, .f32⟩])
        (Host.dotGeneral dot_S65536x128_S128x256_S65536x256_1_0_0_1_n_n none A Wl : 𝒞[⟨S65536x256, .f32⟩])
        (Host.dotGeneral dot_S65536x128_S128x256_S65536x256_1_0_0_1_n_n none H Wr : 𝒞[⟨S65536x256, .f32⟩]))
      ((broadcastInDim
         S65536x256
         ![0, 1]
         bcast_S1x256_S65536x256_0_1
         : 𝒞[⟨S1x256, .f32⟩] → 𝒞[⟨S65536x256, .f32⟩])
        ((broadcastInDim S1x256 ![1] bcast_S256_S1x256_1 : 𝒞[⟨S256, .f32⟩] → 𝒞[⟨S1x256, .f32⟩]) b)))
    ((broadcastInDim S65536x256 ![] bcast_S_S65536x256 : 𝒞[⟨S_, .f32⟩] → 𝒞[⟨S65536x256, .f32⟩])
      (constant S_ .f32 0x00000000#32 : 𝒞[⟨S_, .f32⟩])))

def rAgg256 (H : 𝒞[⟨S65536x256, .f32⟩]) (cnt : 𝒞[⟨S65536, .f32⟩]) (src : 𝒞[⟨S524288, .i32⟩]) (dst : 𝒞[⟨S524288, .i32⟩]) : 𝒞[⟨S65536x256, .f32⟩] :=
  ((Host.divf : 𝒞[⟨S65536x256, .f32⟩] → 𝒞[⟨S65536x256, .f32⟩] → 𝒞[⟨S65536x256, .f32⟩])
    (Host.scatterAdd
      scatter_S65536x256_S524288x1_S524288x256_1_0_0_1
      ((broadcastInDim S65536x256 ![] bcast_S_S65536x256 : 𝒞[⟨S_, .f32⟩] → 𝒞[⟨S65536x256, .f32⟩])
        (constant S_ .f32 0x00000000#32 : 𝒞[⟨S_, .f32⟩]))
      ((broadcastInDim S524288x1 ![0] bcast_S524288_S524288x1_0 : 𝒞[⟨S524288, .i32⟩] → 𝒞[⟨S524288x1, .i32⟩])
        dst)
      (Host.gather
        gather_S65536x256_S524288x1_S524288x256_1_0_n_n_0_1_1256
        H
        ((broadcastInDim
           S524288x1
           ![0]
           bcast_S524288_S524288x1_0
           : 𝒞[⟨S524288, .i32⟩] → 𝒞[⟨S524288x1, .i32⟩])
          ((select : 𝒞[⟨S524288, .i1⟩] → 𝒞[⟨S524288, .i32⟩] → 𝒞[⟨S524288, .i32⟩] → 𝒞[⟨S524288, .i32⟩])
            ((cmpi .slt : 𝒞[⟨S524288, .i32⟩] → 𝒞[⟨S524288, .i32⟩] → 𝒞[⟨S524288, .i1⟩])
              src
              ((broadcastInDim S524288 ![] bcast_S_S524288 : 𝒞[⟨S_, .i32⟩] → 𝒞[⟨S524288, .i32⟩])
                (constantI S_ 32 0#32 : 𝒞[⟨S_, .i32⟩])))
            ((addi : 𝒞[⟨S524288, .i32⟩] → 𝒞[⟨S524288, .i32⟩] → 𝒞[⟨S524288, .i32⟩])
              src
              ((broadcastInDim S524288 ![] bcast_S_S524288 : 𝒞[⟨S_, .i32⟩] → 𝒞[⟨S524288, .i32⟩])
                (constantI S_ 32 65536#32 : 𝒞[⟨S_, .i32⟩])))
            src))
        : 𝒞[⟨S524288x256, .f32⟩])
      : 𝒞[⟨S65536x256, .f32⟩])
    ((broadcastInDim
       S65536x256
       ![0, 1]
       bcast_S65536x1_S65536x256_0_1
       : 𝒞[⟨S65536x1, .f32⟩] → 𝒞[⟨S65536x256, .f32⟩])
      ((broadcastInDim S65536x1 ![0] bcast_S65536_S65536x1_0 : 𝒞[⟨S65536, .f32⟩] → 𝒞[⟨S65536x1, .f32⟩]) cnt)))

def rDense256 (A : 𝒞[⟨S65536x256, .f32⟩]) (H : 𝒞[⟨S65536x256, .f32⟩]) (Wl : 𝒞[⟨S256x256, .f32⟩]) (Wr : 𝒞[⟨S256x256, .f32⟩]) (b : 𝒞[⟨S256, .f32⟩]) : 𝒞[⟨S65536x256, .f32⟩] :=
  ((maximumf : 𝒞[⟨S65536x256, .f32⟩] → 𝒞[⟨S65536x256, .f32⟩] → 𝒞[⟨S65536x256, .f32⟩])
    ((addf : 𝒞[⟨S65536x256, .f32⟩] → 𝒞[⟨S65536x256, .f32⟩] → 𝒞[⟨S65536x256, .f32⟩])
      ((addf : 𝒞[⟨S65536x256, .f32⟩] → 𝒞[⟨S65536x256, .f32⟩] → 𝒞[⟨S65536x256, .f32⟩])
        (Host.dotGeneral dot_S65536x256_S256x256_S65536x256_1_0_0_1_n_n none A Wl : 𝒞[⟨S65536x256, .f32⟩])
        (Host.dotGeneral dot_S65536x256_S256x256_S65536x256_1_0_0_1_n_n none H Wr : 𝒞[⟨S65536x256, .f32⟩]))
      ((broadcastInDim
         S65536x256
         ![0, 1]
         bcast_S1x256_S65536x256_0_1
         : 𝒞[⟨S1x256, .f32⟩] → 𝒞[⟨S65536x256, .f32⟩])
        ((broadcastInDim S1x256 ![1] bcast_S256_S1x256_1 : 𝒞[⟨S256, .f32⟩] → 𝒞[⟨S1x256, .f32⟩]) b)))
    ((broadcastInDim S65536x256 ![] bcast_S_S65536x256 : 𝒞[⟨S_, .f32⟩] → 𝒞[⟨S65536x256, .f32⟩])
      (constant S_ .f32 0x00000000#32 : 𝒞[⟨S_, .f32⟩])))

def rMlp1 (H : 𝒞[⟨S65536x256, .f32⟩]) (W1 : 𝒞[⟨S8192x256, .f32⟩]) (b1 : 𝒞[⟨S256, .f32⟩]) (W2 : 𝒞[⟨S256x1, .f32⟩]) (b2 : 𝒞[⟨S1, .f32⟩]) : 𝒞[⟨S8x256, .f32⟩] :=
  (shapeCast
    S8x256
    ((addf : 𝒞[⟨S8x256x1, .f32⟩] → 𝒞[⟨S8x256x1, .f32⟩] → 𝒞[⟨S8x256x1, .f32⟩])
      (Host.dotGeneral
        dot_S8x256x256_S256x1_S8x256x1_2_0_01_1_n_n
        none
        ((maximumf : 𝒞[⟨S8x256x256, .f32⟩] → 𝒞[⟨S8x256x256, .f32⟩] → 𝒞[⟨S8x256x256, .f32⟩])
          ((addf : 𝒞[⟨S8x256x256, .f32⟩] → 𝒞[⟨S8x256x256, .f32⟩] → 𝒞[⟨S8x256x256, .f32⟩])
            (Host.dotGeneral
              dot_S8x256x8192_S8192x256_S8x256x256_2_0_01_1_n_n
              none
              (shapeCast S8x256x8192 H shapeCasts_S65536x256_S8x256x8192 : 𝒞[⟨S8x256x8192, .f32⟩])
              W1
              : 𝒞[⟨S8x256x256, .f32⟩])
            ((broadcastInDim
               S8x256x256
               ![0, 1, 2]
               bcast_S1x1x256_S8x256x256_0_1_2
               : 𝒞[⟨S1x1x256, .f32⟩] → 𝒞[⟨S8x256x256, .f32⟩])
              ((broadcastInDim S1x1x256 ![2] bcast_S256_S1x1x256_2 : 𝒞[⟨S256, .f32⟩] → 𝒞[⟨S1x1x256, .f32⟩])
                b1)))
          ((broadcastInDim S8x256x256 ![] bcast_S_S8x256x256 : 𝒞[⟨S_, .f32⟩] → 𝒞[⟨S8x256x256, .f32⟩])
            (constant S_ .f32 0x00000000#32 : 𝒞[⟨S_, .f32⟩])))
        W2
        : 𝒞[⟨S8x256x1, .f32⟩])
      ((broadcastInDim
         S8x256x1
         ![0, 1, 2]
         bcast_S1x1x1_S8x256x1_0_1_2
         : 𝒞[⟨S1x1x1, .f32⟩] → 𝒞[⟨S8x256x1, .f32⟩])
        ((broadcastInDim S1x1x1 ![2] bcast_S1_S1x1x1_2 : 𝒞[⟨S1, .f32⟩] → 𝒞[⟨S1x1x1, .f32⟩]) b2)))
    shapeCasts_S8x256x1_S8x256
    : 𝒞[⟨S8x256, .f32⟩])

def rMean8 (M : 𝒞[⟨S8x256, .f32⟩]) : 𝒞[⟨S256, .f32⟩] :=
  ((Host.divf : 𝒞[⟨S256, .f32⟩] → 𝒞[⟨S256, .f32⟩] → 𝒞[⟨S256, .f32⟩])
    (Host.reduceAdd
      M
      (constant S_ .f32 0x00000000#32 : 𝒞[⟨S_, .f32⟩])
      reducesTo_S8x256_S256_d0
      h_S_
      : 𝒞[⟨S256, .f32⟩])
    ((broadcastInDim S256 ![] bcast_S_S256 : 𝒞[⟨S_, .f32⟩] → 𝒞[⟨S256, .f32⟩])
      (constant S_ .f32 0x41000000#32 : 𝒞[⟨S_, .f32⟩])))

def rVar8 (M : 𝒞[⟨S8x256, .f32⟩]) : 𝒞[⟨S256, .f32⟩] :=
  (select
    (broadcastInDim
      S256
      ![]
      bcast_S_S256
      ((cmpf .ogt : 𝒞[⟨S_, .f32⟩] → 𝒞[⟨S_, .f32⟩] → 𝒞[⟨S_, .i1⟩])
        ((subf : 𝒞[⟨S_, .f32⟩] → 𝒞[⟨S_, .f32⟩] → 𝒞[⟨S_, .f32⟩])
          (constant S_ .f32 0x41000000#32 : 𝒞[⟨S_, .f32⟩])
          ((sitofp .f32 : 𝒞[⟨S_, .i32⟩] → 𝒞[⟨S_, .f32⟩]) (constantI S_ 32 0#32 : 𝒞[⟨S_, .i32⟩])))
        (constant S_ .f32 0x00000000#32 : 𝒞[⟨S_, .f32⟩])))
    ((Host.divf : 𝒞[⟨S256, .f32⟩] → 𝒞[⟨S256, .f32⟩] → 𝒞[⟨S256, .f32⟩])
      (Host.reduceAdd
        ((mulf : 𝒞[⟨S8x256, .f32⟩] → 𝒞[⟨S8x256, .f32⟩] → 𝒞[⟨S8x256, .f32⟩])
          ((subf : 𝒞[⟨S8x256, .f32⟩] → 𝒞[⟨S8x256, .f32⟩] → 𝒞[⟨S8x256, .f32⟩])
            M
            ((broadcastInDim S8x256 ![0, 1] bcast_S1x256_S8x256_0_1 : 𝒞[⟨S1x256, .f32⟩] → 𝒞[⟨S8x256, .f32⟩])
              ((Host.divf : 𝒞[⟨S1x256, .f32⟩] → 𝒞[⟨S1x256, .f32⟩] → 𝒞[⟨S1x256, .f32⟩])
                ((broadcastInDim S1x256 ![1] bcast_S256_S1x256_1 : 𝒞[⟨S256, .f32⟩] → 𝒞[⟨S1x256, .f32⟩])
                  (Host.reduceAdd
                    M
                    (constant S_ .f32 0x00000000#32 : 𝒞[⟨S_, .f32⟩])
                    reducesTo_S8x256_S256_d0
                    h_S_
                    : 𝒞[⟨S256, .f32⟩]))
                ((broadcastInDim S1x256 ![] bcast_S_S1x256 : 𝒞[⟨S_, .f32⟩] → 𝒞[⟨S1x256, .f32⟩])
                  (constant S_ .f32 0x41000000#32 : 𝒞[⟨S_, .f32⟩])))))
          ((subf : 𝒞[⟨S8x256, .f32⟩] → 𝒞[⟨S8x256, .f32⟩] → 𝒞[⟨S8x256, .f32⟩])
            M
            ((broadcastInDim S8x256 ![0, 1] bcast_S1x256_S8x256_0_1 : 𝒞[⟨S1x256, .f32⟩] → 𝒞[⟨S8x256, .f32⟩])
              ((Host.divf : 𝒞[⟨S1x256, .f32⟩] → 𝒞[⟨S1x256, .f32⟩] → 𝒞[⟨S1x256, .f32⟩])
                ((broadcastInDim S1x256 ![1] bcast_S256_S1x256_1 : 𝒞[⟨S256, .f32⟩] → 𝒞[⟨S1x256, .f32⟩])
                  (Host.reduceAdd
                    M
                    (constant S_ .f32 0x00000000#32 : 𝒞[⟨S_, .f32⟩])
                    reducesTo_S8x256_S256_d0
                    h_S_
                    : 𝒞[⟨S256, .f32⟩]))
                ((broadcastInDim S1x256 ![] bcast_S_S1x256 : 𝒞[⟨S_, .f32⟩] → 𝒞[⟨S1x256, .f32⟩])
                  (constant S_ .f32 0x41000000#32 : 𝒞[⟨S_, .f32⟩]))))))
        (constant S_ .f32 0x00000000#32 : 𝒞[⟨S_, .f32⟩])
        reducesTo_S8x256_S256_d0
        h_S_
        : 𝒞[⟨S256, .f32⟩])
      ((broadcastInDim S256 ![] bcast_S_S256 : 𝒞[⟨S_, .f32⟩] → 𝒞[⟨S256, .f32⟩])
        ((subf : 𝒞[⟨S_, .f32⟩] → 𝒞[⟨S_, .f32⟩] → 𝒞[⟨S_, .f32⟩])
          (constant S_ .f32 0x41000000#32 : 𝒞[⟨S_, .f32⟩])
          ((sitofp .f32 : 𝒞[⟨S_, .i32⟩] → 𝒞[⟨S_, .f32⟩]) (constantI S_ 32 0#32 : 𝒞[⟨S_, .i32⟩])))))
    ((broadcastInDim S256 ![] bcast_S_S256 : 𝒞[⟨S_, .f32⟩] → 𝒞[⟨S256, .f32⟩])
      (constant S_ .f32 0x7FC00000#32 : 𝒞[⟨S_, .f32⟩]))
    : 𝒞[⟨S256, .f32⟩])

def rHead (M : 𝒞[⟨S8x256, .f32⟩]) (mu : 𝒞[⟨S256, .f32⟩]) (var : 𝒞[⟨S256, .f32⟩]) (gamma : 𝒞[⟨S256, .f32⟩]) (beta : 𝒞[⟨S256, .f32⟩]) (W1 : 𝒞[⟨S256x256, .f32⟩]) (b1 : 𝒞[⟨S256, .f32⟩]) (W2 : 𝒞[⟨S256x8, .f32⟩]) (b2 : 𝒞[⟨S8, .f32⟩]) : 𝒞[⟨S8x8, .f32⟩] :=
  ((addf : 𝒞[⟨S8x8, .f32⟩] → 𝒞[⟨S8x8, .f32⟩] → 𝒞[⟨S8x8, .f32⟩])
    (Host.dotGeneral
      dot_S8x256_S256x8_S8x8_1_0_0_1_n_n
      none
      ((maximumf : 𝒞[⟨S8x256, .f32⟩] → 𝒞[⟨S8x256, .f32⟩] → 𝒞[⟨S8x256, .f32⟩])
        ((addf : 𝒞[⟨S8x256, .f32⟩] → 𝒞[⟨S8x256, .f32⟩] → 𝒞[⟨S8x256, .f32⟩])
          (Host.dotGeneral
            dot_S8x256_S256x256_S8x256_1_0_0_1_n_n
            none
            ((maximumf : 𝒞[⟨S8x256, .f32⟩] → 𝒞[⟨S8x256, .f32⟩] → 𝒞[⟨S8x256, .f32⟩])
              ((addf : 𝒞[⟨S8x256, .f32⟩] → 𝒞[⟨S8x256, .f32⟩] → 𝒞[⟨S8x256, .f32⟩])
                ((mulf : 𝒞[⟨S8x256, .f32⟩] → 𝒞[⟨S8x256, .f32⟩] → 𝒞[⟨S8x256, .f32⟩])
                  ((Host.divf : 𝒞[⟨S8x256, .f32⟩] → 𝒞[⟨S8x256, .f32⟩] → 𝒞[⟨S8x256, .f32⟩])
                    ((subf : 𝒞[⟨S8x256, .f32⟩] → 𝒞[⟨S8x256, .f32⟩] → 𝒞[⟨S8x256, .f32⟩])
                      M
                      ((broadcastInDim
                         S8x256
                         ![0, 1]
                         bcast_S1x256_S8x256_0_1
                         : 𝒞[⟨S1x256, .f32⟩] → 𝒞[⟨S8x256, .f32⟩])
                        ((broadcastInDim
                           S1x256
                           ![1]
                           bcast_S256_S1x256_1
                           : 𝒞[⟨S256, .f32⟩] → 𝒞[⟨S1x256, .f32⟩])
                          mu)))
                    ((broadcastInDim
                       S8x256
                       ![0, 1]
                       bcast_S1x256_S8x256_0_1
                       : 𝒞[⟨S1x256, .f32⟩] → 𝒞[⟨S8x256, .f32⟩])
                      ((broadcastInDim
                         S1x256
                         ![1]
                         bcast_S256_S1x256_1
                         : 𝒞[⟨S256, .f32⟩] → 𝒞[⟨S1x256, .f32⟩])
                        ((Host.sqrt : 𝒞[⟨S256, .f32⟩] → 𝒞[⟨S256, .f32⟩])
                          ((addf : 𝒞[⟨S256, .f32⟩] → 𝒞[⟨S256, .f32⟩] → 𝒞[⟨S256, .f32⟩])
                            var
                            ((broadcastInDim S256 ![] bcast_S_S256 : 𝒞[⟨S_, .f32⟩] → 𝒞[⟨S256, .f32⟩])
                              (constant S_ .f32 0x3727C5AC#32 : 𝒞[⟨S_, .f32⟩])))))))
                  ((broadcastInDim
                     S8x256
                     ![0, 1]
                     bcast_S1x256_S8x256_0_1
                     : 𝒞[⟨S1x256, .f32⟩] → 𝒞[⟨S8x256, .f32⟩])
                    ((broadcastInDim S1x256 ![1] bcast_S256_S1x256_1 : 𝒞[⟨S256, .f32⟩] → 𝒞[⟨S1x256, .f32⟩])
                      gamma)))
                ((broadcastInDim
                   S8x256
                   ![0, 1]
                   bcast_S1x256_S8x256_0_1
                   : 𝒞[⟨S1x256, .f32⟩] → 𝒞[⟨S8x256, .f32⟩])
                  ((broadcastInDim S1x256 ![1] bcast_S256_S1x256_1 : 𝒞[⟨S256, .f32⟩] → 𝒞[⟨S1x256, .f32⟩])
                    beta)))
              ((broadcastInDim S8x256 ![] bcast_S_S8x256 : 𝒞[⟨S_, .f32⟩] → 𝒞[⟨S8x256, .f32⟩])
                (constant S_ .f32 0x00000000#32 : 𝒞[⟨S_, .f32⟩])))
            W1
            : 𝒞[⟨S8x256, .f32⟩])
          ((broadcastInDim S8x256 ![0, 1] bcast_S1x256_S8x256_0_1 : 𝒞[⟨S1x256, .f32⟩] → 𝒞[⟨S8x256, .f32⟩])
            ((broadcastInDim S1x256 ![1] bcast_S256_S1x256_1 : 𝒞[⟨S256, .f32⟩] → 𝒞[⟨S1x256, .f32⟩]) b1)))
        ((broadcastInDim S8x256 ![] bcast_S_S8x256 : 𝒞[⟨S_, .f32⟩] → 𝒞[⟨S8x256, .f32⟩])
          (constant S_ .f32 0x00000000#32 : 𝒞[⟨S_, .f32⟩])))
      W2
      : 𝒞[⟨S8x8, .f32⟩])
    ((broadcastInDim S8x8 ![0, 1] bcast_S1x8_S8x8_0_1 : 𝒞[⟨S1x8, .f32⟩] → 𝒞[⟨S8x8, .f32⟩])
      ((broadcastInDim S1x8 ![1] bcast_S8_S1x8_1 : 𝒞[⟨S8, .f32⟩] → 𝒞[⟨S1x8, .f32⟩]) b2)))

def rLayer128 (H : 𝒞[⟨S65536x128, .f32⟩]) (cnt : 𝒞[⟨S65536, .f32⟩]) (src dst : 𝒞[⟨S524288, .i32⟩]) (Wl Wr : 𝒞[⟨S128x256, .f32⟩]) (b : 𝒞[⟨S256, .f32⟩]) : 𝒞[⟨S65536x256, .f32⟩] :=
  rDense128 (rAgg128 H cnt src dst) H Wl Wr b

def rLayer256 (H : 𝒞[⟨S65536x256, .f32⟩]) (cnt : 𝒞[⟨S65536, .f32⟩]) (src dst : 𝒞[⟨S524288, .i32⟩]) (Wl Wr : 𝒞[⟨S256x256, .f32⟩]) (b : 𝒞[⟨S256, .f32⟩]) : 𝒞[⟨S65536x256, .f32⟩] :=
  rDense256 (rAgg256 H cnt src dst) H Wl Wr b

def rTail (M : 𝒞[⟨S8x256, .f32⟩]) (gamma beta : 𝒞[⟨S256, .f32⟩]) (W1 : 𝒞[⟨S256x256, .f32⟩]) (b1 : 𝒞[⟨S256, .f32⟩]) (W2 : 𝒞[⟨S256x8, .f32⟩]) (b2 : 𝒞[⟨S8, .f32⟩]) : 𝒞[⟨S8x8, .f32⟩] :=
  rHead M (rMean8 M) (rVar8 M) gamma beta W1 b1 W2 b2

def rResult (a0 : 𝒞[⟨S65536x32, .f32⟩]) (a1 : 𝒞[⟨S65536x32, .f32⟩]) (a2 : 𝒞[⟨S65536x32, .f32⟩]) (a3 : 𝒞[⟨S65536x32, .f32⟩]) (a4 : 𝒞[⟨S524288, .i32⟩]) (a5 : 𝒞[⟨S524288, .i32⟩]) (a6 : 𝒞[⟨S128x256, .f32⟩]) (a7 : 𝒞[⟨S128x256, .f32⟩]) (a8 : 𝒞[⟨S256, .f32⟩]) (a9 : 𝒞[⟨S256x256, .f32⟩]) (a10 : 𝒞[⟨S256x256, .f32⟩]) (a11 : 𝒞[⟨S256, .f32⟩]) (a12 : 𝒞[⟨S256x256, .f32⟩]) (a13 : 𝒞[⟨S256x256, .f32⟩]) (a14 : 𝒞[⟨S256, .f32⟩]) (a15 : 𝒞[⟨S256x256, .f32⟩]) (a16 : 𝒞[⟨S256x256, .f32⟩]) (a17 : 𝒞[⟨S256, .f32⟩]) (a18 : 𝒞[⟨S8192x256, .f32⟩]) (a19 : 𝒞[⟨S256, .f32⟩]) (a20 : 𝒞[⟨S256x1, .f32⟩]) (a21 : 𝒞[⟨S1, .f32⟩]) (a22 : 𝒞[⟨S256, .f32⟩]) (a23 : 𝒞[⟨S256, .f32⟩]) (a24 : 𝒞[⟨S256x256, .f32⟩]) (a25 : 𝒞[⟨S256, .f32⟩]) (a26 : 𝒞[⟨S256x8, .f32⟩]) (a27 : 𝒞[⟨S8, .f32⟩]) : 𝒞[⟨S8x8, .f32⟩] :=
  rTail
    (rMlp1
      (rLayer256
        (rLayer256
          (rLayer256
            (rLayer128 (rConcat a0 a1 a2 a3) (rCnt a5) a4 a5 a6 a7 a8)
            (rCnt a5) a4 a5 a9 a10 a11)
          (rCnt a5) a4 a5 a12 a13 a14)
        (rCnt a5) a4 a5 a15 a16 a17)
      a18 a19 a20 a21)
    a22 a23 a24 a25 a26 a27

end Cert.ReferenceIdeal.Hand

end
-- ==== Proof.RefRead.lean ====
import proofs.«408721_j11879879540745_1_alg».proof.Proof.RefRun
import proofs.«408721_j11879879540745_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev sConcat_W : List (Ref sig .tc) := [main_v0]
abbrev sCnt_W : List (Ref sig .tc) := [main_cst, main_v1, main_cst_0, main_v2, main_v3, main_v4, main_cst_1, main_v5, main_v6]
abbrev sL1_W : List (Ref sig .tc) := [main_c, main_v7, main_v8, main_c_2, main_v9, main_v10, main_v11, main_v12, main_v13, main_cst_3, main_v14, main_v15, main_v16, main_v17, main_v18, main_v19, main_v20, main_v21, main_v22, main_v23, main_v24, main_v25, main_call0.cst.ref, main_call0.v0.ref, main_call0.v1.ref]
abbrev sL2_W : List (Ref sig .tc) := [main_c_4, main_v27, main_v28, main_c_5, main_v29, main_v30, main_v31, main_v32, main_v33, main_cst_6, main_v34, main_v35, main_v36, main_v37, main_v38, main_v39, main_v40, main_v41, main_v42, main_v43, main_v44, main_v45, main_call1.cst.ref, main_call1.v0.ref, main_call1.v1.ref]
abbrev sL3_W : List (Ref sig .tc) := [main_c_7, main_v47, main_v48, main_c_8, main_v49, main_v50, main_v51, main_v52, main_v53, main_cst_9, main_v54, main_v55, main_v56, main_v57, main_v58, main_v59, main_v60, main_v61, main_v62, main_v63, main_v64, main_v65, main_call2.cst.ref, main_call2.v0.ref, main_call2.v1.ref]
abbrev sL4_W : List (Ref sig .tc) := [main_c_10, main_v67, main_v68, main_c_11, main_v69, main_v70, main_v71, main_v72, main_v73, main_cst_12, main_v74, main_v75, main_v76, main_v77, main_v78, main_v79, main_v80, main_v81, main_v82, main_v83, main_v84, main_v85, main_call3.cst.ref, main_call3.v0.ref, main_call3.v1.ref]
abbrev sMlp_W : List (Ref sig .tc) := [main_v87, main_v88, main_v89, main_v90, main_v91, main_call4.cst.ref, main_call4.v0.ref, main_call4.v1.ref, main_v93, main_v94, main_v95, main_v96, main_v97]
abbrev sNorm_W : List (Ref sig .tc) := [main_cst_13, main_v98, main_cst_14, main_v99, main_v100, main_c_15, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref]
abbrev sHead_W : List (Ref sig .tc) := [main_v102, main_v103, main_v104, main_cst_16, main_v105, main_v106, main_v107, main_v108, main_v109, main_v110, main_v111, main_v112, main_v113, main_v114, main_v115, main_v116, main_call6.cst.ref, main_call6.v0.ref, main_call6.v1.ref, main_v118, main_v119, main_v120, main_v121, main_call7.cst.ref, main_call7.v0.ref, main_call7.v1.ref, main_v123, main_v124, main_v125, main_v126]
/-- The references a list of operations may write. -/
abbrev Writes (l : List (HloOp τ sig (Elt F))) (W : List (Ref sig .tc)) : Prop :=
  l.Forall fun op => op.writes ⊆ (W.map (Proc.devRef (τ := τ) .tc)).toFinset

theorem stage_writes : Writes (F := F) sConcat sConcat_W ∧ Writes (F := F) sCnt sCnt_W ∧ Writes (F := F) sL1 sL1_W ∧ Writes (F := F) sL2 sL2_W
    ∧ Writes (F := F) sL3 sL3_W ∧ Writes (F := F) sL4 sL4_W ∧ Writes (F := F) sMlp sMlp_W ∧ Writes (F := F) sNorm sNorm_W ∧ Writes (F := F) sHead sHead_W := by
  refine ⟨?_, ?_, ?_, ?_, ?_, ?_, ?_, ?_, ?_⟩ <;>
    (simp only [Writes, List.Forall]; and_intros <;>
      (simp only [nullary_writes, unary_writes, binary_writes, ternary_writes, quaternary_writes, reshape_writes, binaryIndexed_writes, nary_writes, unaryIndexed_writes,
        Finset.singleton_subset_iff, List.mem_toFinset]; exact List.mem_map_of_mem (by decide)))

abbrev ops_W : List (Ref sig .tc) := sConcat_W ++ (sCnt_W ++ (sL1_W ++ (sL2_W ++ (sL3_W ++ (sL4_W ++ (sMlp_W ++ (sNorm_W ++ (sHead_W))))))))

/-- A reference outside every stage's writes is outside each stage's. -/
theorem not_mem_stages {r : Ref sig .tc} (h : r ∉ ops_W) : r ∉ sConcat_W ∧ r ∉ sCnt_W ∧ r ∉ sL1_W ∧ r ∉ sL2_W ∧ r ∉ sL3_W ∧ r ∉ sL4_W
    ∧ r ∉ sMlp_W ∧ r ∉ sNorm_W ∧ r ∉ sHead_W := by
  simpa only [ops_W, List.mem_append, not_or] using h

def val0 (V : Valuation τ sig (Elt F)) : Valuation τ sig (Elt F) := V

def val1 (V : Valuation τ sig (Elt F)) : Valuation τ sig (Elt F) := after sConcat (val0 V)

def val2 (V : Valuation τ sig (Elt F)) : Valuation τ sig (Elt F) := after sCnt (val1 V)

def val3 (V : Valuation τ sig (Elt F)) : Valuation τ sig (Elt F) := after sL1 (val2 V)

def val4 (V : Valuation τ sig (Elt F)) : Valuation τ sig (Elt F) := after sL2 (val3 V)

def val5 (V : Valuation τ sig (Elt F)) : Valuation τ sig (Elt F) := after sL3 (val4 V)

def val6 (V : Valuation τ sig (Elt F)) : Valuation τ sig (Elt F) := after sL4 (val5 V)

def val7 (V : Valuation τ sig (Elt F)) : Valuation τ sig (Elt F) := after sMlp (val6 V)

def val8 (V : Valuation τ sig (Elt F)) : Valuation τ sig (Elt F) := after sNorm (val7 V)

def val9 (V : Valuation τ sig (Elt F)) : Valuation τ sig (Elt F) := after sHead (val8 V)

theorem after_ops (V : Valuation τ sig (Elt F)) : after ops V = val9 V := by
  simp only [ops, after_append]
  rfl

theorem val1_untouched (V : Valuation τ sig (Elt F)) {r : Ref sig .tc} (h : r ∉ ops_W) : val1 V (Proc.devRef .tc r) = V (Proc.devRef .tc r) :=
  (after_of_writes_sub sConcat _ stage_writes.1 (not_mem_stages h).1).trans rfl
theorem val2_untouched (V : Valuation τ sig (Elt F)) {r : Ref sig .tc} (h : r ∉ ops_W) : val2 V (Proc.devRef .tc r) = V (Proc.devRef .tc r) :=
  (after_of_writes_sub sCnt _ stage_writes.2.1 (not_mem_stages h).2.1).trans (val1_untouched V h)
theorem val3_untouched (V : Valuation τ sig (Elt F)) {r : Ref sig .tc} (h : r ∉ ops_W) : val3 V (Proc.devRef .tc r) = V (Proc.devRef .tc r) :=
  (after_of_writes_sub sL1 _ stage_writes.2.2.1 (not_mem_stages h).2.2.1).trans (val2_untouched V h)
theorem val4_untouched (V : Valuation τ sig (Elt F)) {r : Ref sig .tc} (h : r ∉ ops_W) : val4 V (Proc.devRef .tc r) = V (Proc.devRef .tc r) :=
  (after_of_writes_sub sL2 _ stage_writes.2.2.2.1 (not_mem_stages h).2.2.2.1).trans (val3_untouched V h)
theorem val5_untouched (V : Valuation τ sig (Elt F)) {r : Ref sig .tc} (h : r ∉ ops_W) : val5 V (Proc.devRef .tc r) = V (Proc.devRef .tc r) :=
  (after_of_writes_sub sL3 _ stage_writes.2.2.2.2.1 (not_mem_stages h).2.2.2.2.1).trans (val4_untouched V h)
theorem val6_untouched (V : Valuation τ sig (Elt F)) {r : Ref sig .tc} (h : r ∉ ops_W) : val6 V (Proc.devRef .tc r) = V (Proc.devRef .tc r) :=
  (after_of_writes_sub sL4 _ stage_writes.2.2.2.2.2.1 (not_mem_stages h).2.2.2.2.2.1).trans (val5_untouched V h)
theorem val7_untouched (V : Valuation τ sig (Elt F)) {r : Ref sig .tc} (h : r ∉ ops_W) : val7 V (Proc.devRef .tc r) = V (Proc.devRef .tc r) :=
  (after_of_writes_sub sMlp _ stage_writes.2.2.2.2.2.2.1 (not_mem_stages h).2.2.2.2.2.2.1).trans (val6_untouched V h)
theorem val8_untouched (V : Valuation τ sig (Elt F)) {r : Ref sig .tc} (h : r ∉ ops_W) : val8 V (Proc.devRef .tc r) = V (Proc.devRef .tc r) :=
  (after_of_writes_sub sNorm _ stage_writes.2.2.2.2.2.2.2.1 (not_mem_stages h).2.2.2.2.2.2.2.1).trans (val7_untouched V h)
theorem val9_untouched (V : Valuation τ sig (Elt F)) {r : Ref sig .tc} (h : r ∉ ops_W) : val9 V (Proc.devRef .tc r) = V (Proc.devRef .tc r) :=
  (after_of_writes_sub sHead _ stage_writes.2.2.2.2.2.2.2.2 (not_mem_stages h).2.2.2.2.2.2.2.2).trans (val8_untouched V h)

def refH0 (V : Valuation τ sig (Elt F)) := rConcat (V (Proc.devRef .tc main_arg0)) (V (Proc.devRef .tc main_arg1)) (V (Proc.devRef .tc main_arg2)) (V (Proc.devRef .tc main_arg3))

def refCnt (V : Valuation τ sig (Elt F)) := rCnt (V (Proc.devRef .tc main_arg5))

def refH1 (V : Valuation τ sig (Elt F)) := rLayer128 (refH0 V) (refCnt V) (V (Proc.devRef .tc main_arg4)) (V (Proc.devRef .tc main_arg5)) (V (Proc.devRef .tc main_arg6)) (V (Proc.devRef .tc main_arg7)) (V (Proc.devRef .tc main_arg8))

def refH2 (V : Valuation τ sig (Elt F)) := rLayer256 (refH1 V) (refCnt V) (V (Proc.devRef .tc main_arg4)) (V (Proc.devRef .tc main_arg5)) (V (Proc.devRef .tc main_arg9)) (V (Proc.devRef .tc main_arg10)) (V (Proc.devRef .tc main_arg11))

def refH3 (V : Valuation τ sig (Elt F)) := rLayer256 (refH2 V) (refCnt V) (V (Proc.devRef .tc main_arg4)) (V (Proc.devRef .tc main_arg5)) (V (Proc.devRef .tc main_arg12)) (V (Proc.devRef .tc main_arg13)) (V (Proc.devRef .tc main_arg14))

def refH4 (V : Valuation τ sig (Elt F)) := rLayer256 (refH3 V) (refCnt V) (V (Proc.devRef .tc main_arg4)) (V (Proc.devRef .tc main_arg5)) (V (Proc.devRef .tc main_arg15)) (V (Proc.devRef .tc main_arg16)) (V (Proc.devRef .tc main_arg17))

def refM (V : Valuation τ sig (Elt F)) := rMlp1 (refH4 V) (V (Proc.devRef .tc main_arg18)) (V (Proc.devRef .tc main_arg19)) (V (Proc.devRef .tc main_arg20)) (V (Proc.devRef .tc main_arg21))

set_option maxRecDepth 8192 in
set_option maxHeartbeats 2000000 in
theorem val1_v0 (V : Valuation τ sig (Elt F)) : val1 V (no_index (Proc.devRef .tc main_v0)) = refH0 V := by
  unfold val1
  simp only [sConcat]
  after_results
  rfl
theorem val2_v0 (V : Valuation τ sig (Elt F)) : val2 V (no_index (Proc.devRef .tc main_v0)) = refH0 V :=
  (after_of_writes_sub sCnt _ stage_writes.2.1 (r := main_v0) (by decide)).trans (val1_v0 V)
set_option maxRecDepth 8192 in
set_option maxHeartbeats 2000000 in
theorem val2_v6 (V : Valuation τ sig (Elt F)) : val2 V (no_index (Proc.devRef .tc main_v6)) = refCnt V := by
  unfold val2
  simp only [sCnt]
  after_results
  simp only [val1_untouched V (r := main_arg5) (by decide)]
  rfl
theorem val3_v6 (V : Valuation τ sig (Elt F)) : val3 V (no_index (Proc.devRef .tc main_v6)) = refCnt V :=
  (after_of_writes_sub sL1 _ stage_writes.2.2.1 (r := main_v6) (by decide)).trans (val2_v6 V)
set_option maxRecDepth 8192 in
set_option maxHeartbeats 2000000 in
theorem val3_v26 (V : Valuation τ sig (Elt F)) : val3 V (no_index (Proc.devRef .tc main_v26)) = refH1 V := by
  unfold val3
  simp only [sL1]
  after_results_simp
  simp only [val2_v0, val2_v6, val2_untouched V (r := main_arg4) (by decide), val2_untouched V (r := main_arg5) (by decide), val2_untouched V (r := main_arg6) (by decide), val2_untouched V (r := main_arg7) (by decide), val2_untouched V (r := main_arg8) (by decide)]
  rfl
theorem val4_v6 (V : Valuation τ sig (Elt F)) : val4 V (no_index (Proc.devRef .tc main_v6)) = refCnt V :=
  (after_of_writes_sub sL2 _ stage_writes.2.2.2.1 (r := main_v6) (by decide)).trans (val3_v6 V)
set_option maxRecDepth 8192 in
set_option maxHeartbeats 2000000 in
theorem val4_v46 (V : Valuation τ sig (Elt F)) : val4 V (no_index (Proc.devRef .tc main_v46)) = refH2 V := by
  unfold val4
  simp only [sL2]
  after_results_simp
  simp only [val3_v26, val3_v6, val3_untouched V (r := main_arg4) (by decide), val3_untouched V (r := main_arg5) (by decide), val3_untouched V (r := main_arg9) (by decide), val3_untouched V (r := main_arg10) (by decide), val3_untouched V (r := main_arg11) (by decide)]
  rfl
theorem val5_v6 (V : Valuation τ sig (Elt F)) : val5 V (no_index (Proc.devRef .tc main_v6)) = refCnt V :=
  (after_of_writes_sub sL3 _ stage_writes.2.2.2.2.1 (r := main_v6) (by decide)).trans (val4_v6 V)
set_option maxRecDepth 8192 in
set_option maxHeartbeats 2000000 in
theorem val5_v66 (V : Valuation τ sig (Elt F)) : val5 V (no_index (Proc.devRef .tc main_v66)) = refH3 V := by
  unfold val5
  simp only [sL3]
  after_results_simp
  simp only [val4_v46, val4_v6, val4_untouched V (r := main_arg4) (by decide), val4_untouched V (r := main_arg5) (by decide), val4_untouched V (r := main_arg12) (by decide), val4_untouched V (r := main_arg13) (by decide), val4_untouched V (r := main_arg14) (by decide)]
  rfl
set_option maxRecDepth 8192 in
set_option maxHeartbeats 2000000 in
theorem val6_v86 (V : Valuation τ sig (Elt F)) : val6 V (no_index (Proc.devRef .tc main_v86)) = refH4 V := by
  unfold val6
  simp only [sL4]
  after_results_simp
  simp only [val5_v66, val5_v6, val5_untouched V (r := main_arg4) (by decide), val5_untouched V (r := main_arg5) (by decide), val5_untouched V (r := main_arg15) (by decide), val5_untouched V (r := main_arg16) (by decide), val5_untouched V (r := main_arg17) (by decide)]
  rfl
set_option maxRecDepth 8192 in
set_option maxHeartbeats 2000000 in
theorem val7_v97 (V : Valuation τ sig (Elt F)) : val7 V (no_index (Proc.devRef .tc main_v97)) = refM V := by
  unfold val7
  simp only [sMlp]
  after_results
  simp only [val6_v86, val6_untouched V (r := main_arg18) (by decide), val6_untouched V (r := main_arg19) (by decide), val6_untouched V (r := main_arg20) (by decide), val6_untouched V (r := main_arg21) (by decide)]
  rfl
theorem val8_v97 (V : Valuation τ sig (Elt F)) : val8 V (no_index (Proc.devRef .tc main_v97)) = refM V :=
  (after_of_writes_sub sNorm _ stage_writes.2.2.2.2.2.2.2.1 (r := main_v97) (by decide)).trans (val7_v97 V)
set_option maxRecDepth 8192 in
set_option maxHeartbeats 2000000 in
theorem val8_v100 (V : Valuation τ sig (Elt F)) : val8 V (no_index (Proc.devRef .tc main_v100)) = rMean8 (refM V) := by
  unfold val8
  simp only [sNorm]
  after_results_simp
  simp only [val7_v97]
  rfl
set_option maxRecDepth 8192 in
set_option maxHeartbeats 2000000 in
theorem val8_v101 (V : Valuation τ sig (Elt F)) : val8 V (no_index (Proc.devRef .tc main_v101)) = rVar8 (refM V) := by
  unfold val8
  simp only [sNorm]
  after_results_simp
  simp only [val7_v97]
  rfl
set_option maxRecDepth 8192 in
set_option maxHeartbeats 2000000 in
theorem val9_v126 (V : Valuation τ sig (Elt F)) : val9 V (no_index (Proc.devRef .tc main_v126)) = rHead (refM V) (rMean8 (refM V)) (rVar8 (refM V)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  unfold val9
  simp only [sHead]
  after_results_simp
  simp only [val8_v97, val8_v100, val8_v101, val8_untouched V (r := main_arg22) (by decide), val8_untouched V (r := main_arg23) (by decide), val8_untouched V (r := main_arg24) (by decide), val8_untouched V (r := main_arg25) (by decide), val8_untouched V (r := main_arg26) (by decide), val8_untouched V (r := main_arg27) (by decide)]
  rfl

theorem result_eq (V : Valuation τ sig (Elt F)) :
    after ops V (Proc.devRef .tc main_v126)
      = rResult (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19))
          (V (Proc.devRef .tc main_arg20))
          (V (Proc.devRef .tc main_arg21))
          (V (Proc.devRef .tc main_arg22))
          (V (Proc.devRef .tc main_arg23))
          (V (Proc.devRef .tc main_arg24))
          (V (Proc.devRef .tc main_arg25))
          (V (Proc.devRef .tc main_arg26))
          (V (Proc.devRef .tc main_arg27)) := by
  rw [after_ops]
  exact val9_v126 V

theorem kept (V : Valuation τ sig (Elt F)) {r : Ref sig .tc} (h : r ∉ ops_W) : after ops V (Proc.devRef .tc r) = V (Proc.devRef .tc r) := by
  rw [after_ops]
  exact val9_untouched V h

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126)
        = rResult (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
            (m ((c.tc : Thread nD τ).loc main_arg25))
            (m ((c.tc : Thread nD τ).loc main_arg26))
            (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v126).trans (result_eq (launchContents m c)),
      (h c main_arg0).trans (kept (launchContents m c) (by decide)),
      (h c main_arg1).trans (kept (launchContents m c) (by decide)),
      (h c main_arg2).trans (kept (launchContents m c) (by decide)),
      (h c main_arg3).trans (kept (launchContents m c) (by decide)),
      (h c main_arg4).trans (kept (launchContents m c) (by decide)),
      (h c main_arg5).trans (kept (launchContents m c) (by decide)),
      (h c main_arg6).trans (kept (launchContents m c) (by decide)),
      (h c main_arg7).trans (kept (launchContents m c) (by decide)),
      (h c main_arg8).trans (kept (launchContents m c) (by decide)),
      (h c main_arg9).trans (kept (launchContents m c) (by decide)),
      (h c main_arg10).trans (kept (launchContents m c) (by decide)),
      (h c main_arg11).trans (kept (launchContents m c) (by decide)),
      (h c main_arg12).trans (kept (launchContents m c) (by decide)),
      (h c main_arg13).trans (kept (launchContents m c) (by decide)),
      (h c main_arg14).trans (kept (launchContents m c) (by decide)),
      (h c main_arg15).trans (kept (launchContents m c) (by decide)),
      (h c main_arg16).trans (kept (launchContents m c) (by decide)),
      (h c main_arg17).trans (kept (launchContents m c) (by decide)),
      (h c main_arg18).trans (kept (launchContents m c) (by decide)),
      (h c main_arg19).trans (kept (launchContents m c) (by decide)),
      (h c main_arg20).trans (kept (launchContents m c) (by decide)),
      (h c main_arg21).trans (kept (launchContents m c) (by decide)),
      (h c main_arg22).trans (kept (launchContents m c) (by decide)),
      (h c main_arg23).trans (kept (launchContents m c) (by decide)),
      (h c main_arg24).trans (kept (launchContents m c) (by decide)),
      (h c main_arg25).trans (kept (launchContents m c) (by decide)),
      (h c main_arg26).trans (kept (launchContents m c) (by decide)),
      (h c main_arg27).trans (kept (launchContents m c) (by decide))⟩)
    (run_after m ρ)

end Cert.ReferenceIdeal.Hand

end
-- ==== Proof.PreRange.lean ====
import proofs.«408721_j11879879540745_1_alg».proof.Defs
import proofs.«408721_j11879879540745_1_alg».proof.Proof.Gen.Pre_finite_inputs
import Idealize.ShloMosaic.Lib.ReduceAll
import Idealize.ShloMosaic.Lib.ValueIdx
import Idealize.ShloMosaic.Lib.StableHlo.Predicate

noncomputable section

namespace Cert.PreRange

open Idealize.ShloMosaic Idealize.SL.Sem Cert.Pre_finite_inputs

instance : Subsingleton S_.Idx := ⟨fun a b => funext fun d => d.elim0⟩

theorem src_in_range (m : (ℓ : Loc Cert.KernelIdeal.nD Cert.KernelIdeal.τ Cert.KernelIdeal.sig) → Buf (Elt Ideal) ℓ)
    (h : Cert.Pre_KernelIdeal m) (c : Dev Cert.KernelIdeal.nD) (e : S524288.Idx) :
    0 ≤ (m ((c.tc : Thread Cert.KernelIdeal.nD Cert.KernelIdeal.τ).loc Cert.KernelIdeal.main_arg4) e).toInt
      ∧ (m ((c.tc : Thread Cert.KernelIdeal.nD Cert.KernelIdeal.τ).loc Cert.KernelIdeal.main_arg4) e).toInt < 65536 := by
  have h1 := congrFun (h c) ValueIdx.ix0
  unfold Cert.Pre_finite_inputs.fn fn_part1 fn_part2 fn_part3 fn_part4 fn_part5 fn_part6 fn_part7 at h1
  dsimp only at h1
  obtain ⟨-, h2⟩ := IntOp.andi_eq_one.1 h1
  have h3 := Host.reduce_andi_all _ _ _ _ _ h2 e
  change IntOp.andi (IntOp.cmpi .sge _ _) (IntOp.cmpi .slt _ _) = 1#1 at h3
  obtain ⟨h4, h5⟩ := IntOp.andi_eq_one.1 h3
  have h6 := IntOp.cmpi_sge.1 h4
  have h7 := IntOp.cmpi_slt.1 h5

  change (0#32 : BitVec 32).toInt ≤ _ at h6
  change _ < (65536#32 : BitVec 32).toInt at h7
  have z0 : (0#32 : BitVec 32).toInt = 0 := by decide
  have z1 : (65536#32 : BitVec 32).toInt = 65536 := by decide
  rw [z0] at h6; rw [z1] at h7
  exact ⟨h6, h7⟩

end Cert.PreRange

end
-- ==== Proof.KI.HostRead.lean ====
import proofs.«408721_j11879879540745_1_alg».proof.Proof.Gen.KernelIdeal.Regions
import Idealize.ShloMosaic.Lib.StableHlo.Run

set_option maxRecDepth 1604

set_option synthInstance.maxSize 2048

noncomputable section

namespace Cert.KernelIdeal.Hand

open Cert.KernelIdeal Cert.KernelIdeal.Gen
open Idealize.ShloMosaic Idealize.ShloMosaic.TcCoe
open Idealize.ShloMosaic.StableHlo (after after_cons after_nil)

variable {F : FTy → Type} [FloatOps F]

def kConcat (a0 a1 a2 a3 : FVec F S65536x32 .f32) : FVec F S65536x128 .f32 :=
  concatenate S65536x128 1 [⟨S65536x32, a0⟩, ⟨S65536x32, a1⟩, ⟨S65536x32, a2⟩, ⟨S65536x32, a3⟩]
    concatenates_S65536x32_S65536x32_S65536x32_S65536x32_S65536x128_d1

def kInv (dst : IVec S524288 32) : FVec F S65536x1 .f32 :=
  broadcastInDim S65536x1 ![0] bcast_S65536_S65536x1_0
    (Host.divf (broadcastInDim S65536 ![] bcast_S_S65536 (constant S_ .f32 0x3F800000#32))
      (maximumf
        (Host.scatterAdd scatter_S65536_S524288x1_S524288_n_0_0_1
          (broadcastInDim S65536 ![] bcast_S_S65536 (constant S_ .f32 0x00000000#32))
          (broadcastInDim S524288x1 ![0] bcast_S524288_S524288x1_0 dst)
          (broadcastInDim S524288 ![] bcast_S_S524288 (constant S_ .f32 0x3F800000#32)))
        (broadcastInDim S65536 ![] bcast_S_S65536 (constant S_ .f32 0x3F800000#32))))

def kWrap (src : IVec S524288 32) : IVec S524288x1 32 :=
  broadcastInDim S524288x1 ![0] bcast_S524288_S524288x1_0
    (select (cmpi .slt src (broadcastInDim S524288 ![] bcast_S_S524288 (constantI S_ 32 0#32)))
      (addi src (broadcastInDim S524288 ![] bcast_S_S524288 (constantI S_ 32 65536#32))) src)

def kInRange (idx : IVec S524288x1 32) : IVec S524288 1 :=
  Host.reduce IntOp.andi
    (andi (cmpi .sge idx (broadcastInDim S524288x1 ![] bcast_S_S524288x1 (constantI S_ 32 0#32)))
      (cmpi .sle idx (broadcastInDim S524288x1 ![0, 1] bcast_S1x1_S524288x1_0_1
        (broadcastInDim S1x1 ![1] bcast_S1_S1x1_1 (constantI S1 32 65535#32)))))
    (constantI S_ 1 1#1) reducesTo_S524288x1_S524288_d1 h_S_

def kTake128 (H : FVec F S65536x128 .f32) (src : IVec S524288 32) : FVec F S524288x128 .f32 :=
  select (broadcastInDim S524288x128 ![0] bcast_S524288_S524288x128_0 (kInRange (kWrap src)))
    (Host.gather gather_S65536x128_S524288x1_S524288x128_1_0_n_n_0_1_1128 H (kWrap src))
    (broadcastInDim S524288x128 ![] bcast_S_S524288x128 (constant S_ .f32 0x7FC00000#32))

def kTake256 (H : FVec F S65536x256 .f32) (src : IVec S524288 32) : FVec F S524288x256 .f32 :=
  select (broadcastInDim S524288x256 ![0] bcast_S524288_S524288x256_0 (kInRange (kWrap src)))
    (Host.gather gather_S65536x256_S524288x1_S524288x256_1_0_n_n_0_1_1256 H (kWrap src))
    (broadcastInDim S524288x256 ![] bcast_S_S524288x256 (constant S_ .f32 0x7FC00000#32))

def kScale128 (T : FVec F S524288x128 .f32) (inv : FVec F S65536x1 .f32) (dst : IVec S524288 32) :
    FVec F S65536x128 .f32 :=
  mulf
    (Host.scatterAdd scatter_S65536x128_S524288x1_S524288x128_1_0_0_1
      (broadcastInDim S65536x128 ![] bcast_S_S65536x128 (constant S_ .f32 0x00000000#32))
      (broadcastInDim S524288x1 ![0] bcast_S524288_S524288x1_0 dst) T)
    (broadcastInDim S65536x128 ![0, 1] bcast_S65536x1_S65536x128_0_1 inv)

def kScale256 (T : FVec F S524288x256 .f32) (inv : FVec F S65536x1 .f32) (dst : IVec S524288 32) :
    FVec F S65536x256 .f32 :=
  mulf
    (Host.scatterAdd scatter_S65536x256_S524288x1_S524288x256_1_0_0_1
      (broadcastInDim S65536x256 ![] bcast_S_S65536x256 (constant S_ .f32 0x00000000#32))
      (broadcastInDim S524288x1 ![0] bcast_S524288_S524288x1_0 dst) T)
    (broadcastInDim S65536x256 ![0, 1] bcast_S65536x1_S65536x256_0_1 inv)

def kAgg128 (H : FVec F S65536x128 .f32) (inv : FVec F S65536x1 .f32) (src dst : IVec S524288 32) :
    FVec F S65536x128 .f32 :=
  kScale128 (kTake128 H src) inv dst

def kAgg256 (H : FVec F S65536x256 .f32) (inv : FVec F S65536x1 .f32) (src dst : IVec S524288 32) :
    FVec F S65536x256 .f32 :=
  kScale256 (kTake256 H src) inv dst

def kBias (b : FVec F S256 .f32) : FVec F S1x256 .f32 := shapeCast S1x256 b shapeCasts_S256_S1x256

def kTo3d (H : FVec F S65536x256 .f32) : FVec F S8x256x8192 .f32 :=
  shapeCast S8x256x8192 H shapeCasts_S65536x256_S8x256x8192

def kB2 (b : FVec F S1 .f32) : FVec F S1x1 .f32 := shapeCast S1x1 b shapeCasts_S1_S1x1

def kFlat (O : FVec F S8x1x256 .f32) : FVec F S8x256 .f32 := shapeCast S8x256 O shapeCasts_S8x1x256_S8x256

def kRow (v : FVec F S256 .f32) : FVec F S8x256 .f32 :=
  broadcastInDim S8x256 ![0, 1] bcast_S1x256_S8x256_0_1 (broadcastInDim S1x256 ![1] bcast_S256_S1x256_1 v)

def kMean (X : FVec F S8x256 .f32) : FVec F S256 .f32 :=
  Host.divf (Host.reduceAdd X (constant S_ .f32 0x00000000#32) reducesTo_S8x256_S256_d0 h_S_)
    (broadcastInDim S256 ![] bcast_S_S256 (constant S_ .f32 0x41000000#32))

def kCount (d : IVec S_ 32) : FVec F S_ .f32 := subf (constant S_ .f32 0x41000000#32) (sitofp .f32 d)

def kDev (X : FVec F S8x256 .f32) : FVec F S8x256 .f32 :=
  subf X (broadcastInDim S8x256 ![0, 1] bcast_S1x256_S8x256_0_1
    (Host.divf
      (broadcastInDim S1x256 ![1] bcast_S256_S1x256_1
        (Host.reduceAdd X (constant S_ .f32 0x00000000#32) reducesTo_S8x256_S256_d0 h_S_))
      (broadcastInDim S1x256 ![] bcast_S_S1x256 (constant S_ .f32 0x41000000#32))))

def kVar (X : FVec F S8x256 .f32) (d : IVec S_ 32) : FVec F S256 .f32 :=
  select (broadcastInDim S256 ![] bcast_S_S256 (cmpf .ogt (kCount (F := F) d) (constant S_ .f32 0x00000000#32)))
    (Host.divf
      (Host.reduceAdd (mulf (kDev X) (kDev X)) (constant S_ .f32 0x00000000#32) reducesTo_S8x256_S256_d0 h_S_)
      (broadcastInDim S256 ![] bcast_S_S256 (kCount (F := F) d)))
    (broadcastInDim S256 ![] bcast_S_S256 (id (constant S_ .f32 0x7FC00000#32)))

def kNorm (X : FVec F S8x256 .f32) (mean var gamma beta : FVec F S256 .f32) : FVec F S8x256 .f32 :=
  addf
    (mulf
      (Host.divf (subf X (kRow mean))
        (kRow (Host.sqrt (addf var (broadcastInDim S256 ![] bcast_S_S256 (constant S_ .f32 0x3727C5AC#32))))))
      (kRow gamma))
    (kRow beta)

def kRelu (X : FVec F S8x256 .f32) : FVec F S8x256 .f32 :=
  maximumf X (broadcastInDim S8x256 ![] bcast_S_S8x256 (constant S_ .f32 0x00000000#32))

def kDense1 (X : FVec F S8x256 .f32) (W : FVec F S256x256 .f32) (b : FVec F S256 .f32) : FVec F S8x256 .f32 :=
  addf (Host.dotGeneral dot_S8x256_S256x256_S8x256_1_0_0_1_n_n none X W) (kRow b)

def kDense2 (X : FVec F S8x256 .f32) (W : FVec F S256x8 .f32) (b : FVec F S8 .f32) : FVec F S8x8 .f32 :=
  addf (Host.dotGeneral dot_S8x256_S256x8_S8x8_1_0_0_1_n_n none X W)
    (broadcastInDim S8x8 ![0, 1] bcast_S1x8_S8x8_0_1 (broadcastInDim S1x8 ![1] bcast_S8_S1x8_1 b))

def kTail (O : FVec F S8x1x256 .f32) (gamma beta : FVec F S256 .f32) (W1 : FVec F S256x256 .f32)
    (b1 : FVec F S256 .f32) (W2 : FVec F S256x8 .f32) (b2 : FVec F S8 .f32) : FVec F S8x8 .f32 :=
  kDense2 (kRelu (kDense1 (kRelu (kNorm (kFlat O) (kMean (kFlat O)) (kVar (kFlat O) (constantI S_ 32 0#32)) gamma beta)) W1 b1)) W2 b2

section Lists

open Idealize.ShloMosaic.StableHlo

variable (W : Valuation τ sig (Elt F))

theorem h0_v0 : after hostOps0 W main_v0 = kConcat (W main_arg0) (W main_arg1) (W main_arg2) (W main_arg3) := by
  after_results; rfl

theorem h0_v9 : after hostOps0 W main_v9 = kInv (W main_arg5) := by
  after_results; rfl

theorem h0_1_v10 : after hostOps0_1 W main_v10 = kTake128 (W main_v0) (W main_arg4) := by
  after_results_simp
  simp only [TRef.ofBuf, TRef.toBuf, cast_eq]
  rfl

theorem h0_2_v15 : after hostOps0_2 W main_v15 = kScale128 (W main_v10) (W main_v9) (W main_arg5) := by
  after_results; rfl

theorem h0_2_v16 : after hostOps0_2 W main_v16 = kBias (W main_arg8) := by
  after_results; rfl

theorem h1_v18 : after hostOps1 W main_v18 = kTake256 (W main_v17) (W main_arg4) := by
  after_results_simp
  simp only [TRef.ofBuf, TRef.toBuf, cast_eq]
  rfl

theorem h1_1_v23 : after hostOps1_1 W main_v23 = kScale256 (W main_v18) (W main_v9) (W main_arg5) := by
  after_results; rfl

theorem h1_1_v24 : after hostOps1_1 W main_v24 = kBias (W main_arg11) := by
  after_results; rfl

theorem h2_v26 : after hostOps2 W main_v26 = kTake256 (W main_v25) (W main_arg4) := by
  after_results_simp
  simp only [TRef.ofBuf, TRef.toBuf, cast_eq]
  rfl

theorem h2_1_v31 : after hostOps2_1 W main_v31 = kScale256 (W main_v26) (W main_v9) (W main_arg5) := by
  after_results; rfl

theorem h2_1_v32 : after hostOps2_1 W main_v32 = kBias (W main_arg14) := by
  after_results; rfl

theorem h3_v34 : after hostOps3 W main_v34 = kTake256 (W main_v33) (W main_arg4) := by
  after_results_simp
  simp only [TRef.ofBuf, TRef.toBuf, cast_eq]
  rfl

theorem h3_1_v39 : after hostOps3_1 W main_v39 = kScale256 (W main_v34) (W main_v9) (W main_arg5) := by
  after_results; rfl

theorem h3_1_v40 : after hostOps3_1 W main_v40 = kBias (W main_arg17) := by
  after_results; rfl

theorem h4_v42 : after hostOps4 W main_v42 = kTo3d (W main_v41) := by
  after_results; rfl

theorem h4_v43 : after hostOps4 W main_v43 = kBias (W main_arg19) := by
  after_results; rfl

theorem h4_v44 : after hostOps4 W main_v44 = kB2 (W main_arg21) := by
  after_results; rfl

theorem h5_v46 : after hostOps5 W main_v46 = kFlat (W main_v45) := by
  after_results; rfl

theorem h5_v49 : after hostOps5 W main_v49 = kMean (kFlat (W main_v45)) := by
  after_results; rfl

theorem h5_c : after hostOps5 W main_c = constantI S_ 32 0#32 := by
  after_results

theorem h5_1_v50 : after hostOps5_1 W main_v50 = kVar (W main_v46) (W main_c) := by
  after_results_simp
  simp only [TRef.ofBuf, TRef.toBuf, cast_eq]
  rfl

theorem h5_2_v65 : after hostOps5_2 W main_v65
    = kNorm (W main_v46) (W main_v49) (W main_v50) (W main_arg22) (W main_arg23) := by
  after_results_simp; rfl

theorem h5_3_v66 : after hostOps5_3 W main_v66 = kRelu (W main_v65) := by
  after_results_simp
  simp only [TRef.ofBuf, TRef.toBuf, cast_eq]
  rfl

theorem h5_4_v70 : after hostOps5_4 W main_v70 = kDense1 (W main_v66) (W main_arg24) (W main_arg25) := by
  after_results; rfl

theorem h5_5_v71 : after hostOps5_5 W main_v71 = kRelu (W main_v70) := by
  after_results_simp
  simp only [TRef.ofBuf, TRef.toBuf, cast_eq]
  rfl

theorem h5_6_v75 : after hostOps5_6 W main_v75 = kDense2 (W main_v71) (W main_arg26) (W main_arg27) := by
  after_results; rfl

end Lists

abbrev Ws : Fin 22 → List (Ref sig .tc) :=
  ![hostOps0_W, hostOps0_1_W, hostOps0_2_W, [main_v17], hostOps1_W, hostOps1_1_W, [main_v25],
    hostOps2_W, hostOps2_1_W, [main_v33], hostOps3_W, hostOps3_1_W, [main_v41], hostOps4_W, [main_v45],
    hostOps5_W, hostOps5_1_W, hostOps5_2_W, hostOps5_3_W, hostOps5_4_W, hostOps5_5_W, hostOps5_6_W]

variable (m : (ℓ : Loc nD τ sig) → Buf (Elt F) ℓ) (outs : Outs (F := F)) (c : Dev nD)

section Untouched

variable {r : Ref sig .tc} (h : ∀ i, r ∉ Ws i)
include h

theorem V1_un : V1 m c r = m ((c : Thread nD τ).loc r) := V1_of m c r (h 0)
theorem V2_un : V2 m c r = m ((c : Thread nD τ).loc r) := (V2_of m c r (h 1)).trans (V1_un m c h)
theorem V3_un : V3 m c r = m ((c : Thread nD τ).loc r) := (V3_of m c r (h 2)).trans (V2_un m c h)
theorem V4_un : V4 m outs c r = m ((c : Thread nD τ).loc r) := (V4_of m outs c r (h 3)).trans (V3_un m c h)
theorem V5_un : V5 m outs c r = m ((c : Thread nD τ).loc r) := (V5_of m outs c r (h 4)).trans (V4_un m outs c h)
theorem V6_un : V6 m outs c r = m ((c : Thread nD τ).loc r) := (V6_of m outs c r (h 5)).trans (V5_un m outs c h)
theorem V7_un : V7 m outs c r = m ((c : Thread nD τ).loc r) := (V7_of m outs c r (h 6)).trans (V6_un m outs c h)
theorem V8_un : V8 m outs c r = m ((c : Thread nD τ).loc r) := (V8_of m outs c r (h 7)).trans (V7_un m outs c h)
theorem V9_un : V9 m outs c r = m ((c : Thread nD τ).loc r) := (V9_of m outs c r (h 8)).trans (V8_un m outs c h)
theorem V10_un : V10 m outs c r = m ((c : Thread nD τ).loc r) := (V10_of m outs c r (h 9)).trans (V9_un m outs c h)
theorem V11_un : V11 m outs c r = m ((c : Thread nD τ).loc r) := (V11_of m outs c r (h 10)).trans (V10_un m outs c h)
theorem V12_un : V12 m outs c r = m ((c : Thread nD τ).loc r) := (V12_of m outs c r (h 11)).trans (V11_un m outs c h)
theorem V13_un : V13 m outs c r = m ((c : Thread nD τ).loc r) := (V13_of m outs c r (h 12)).trans (V12_un m outs c h)
theorem V14_un : V14 m outs c r = m ((c : Thread nD τ).loc r) := (V14_of m outs c r (h 13)).trans (V13_un m outs c h)
theorem V17_un : V17 m outs c r = m ((c : Thread nD τ).loc r) := (V17_of m outs c r (h 16)).trans <| (V16_of m outs c r (h 15)).trans <| (V15_of m outs c r (h 14)).trans (V14_un m outs c h)
theorem V19_un : V19 m outs c r = m ((c : Thread nD τ).loc r) := (V19_of m outs c r (h 18)).trans <| (V18_of m outs c r (h 17)).trans (V17_un m outs c h)
theorem V21_un : V21 m outs c r = m ((c : Thread nD τ).loc r) := (V21_of m outs c r (h 20)).trans <| (V20_of m outs c r (h 19)).trans (V19_un m outs c h)

end Untouched

theorem V2_v9 : V2 m c main_v9 = kInv (m ((c : Thread nD τ).loc main_arg5)) :=
  (V2_of m c main_v9 (by decide)).trans (h0_v9 (V0 m c))
theorem V5_v9 : V5 m outs c main_v9 = kInv (m ((c : Thread nD τ).loc main_arg5)) :=
  (V5_of m outs c main_v9 (by decide)).trans <| (V4_of m outs c main_v9 (by decide)).trans <|
    (V3_of m c main_v9 (by decide)).trans (V2_v9 m c)
theorem V8_v9 : V8 m outs c main_v9 = kInv (m ((c : Thread nD τ).loc main_arg5)) :=
  (V8_of m outs c main_v9 (by decide)).trans <| (V7_of m outs c main_v9 (by decide)).trans <|
    (V6_of m outs c main_v9 (by decide)).trans (V5_v9 m outs c)
theorem V11_v9 : V11 m outs c main_v9 = kInv (m ((c : Thread nD τ).loc main_arg5)) :=
  (V11_of m outs c main_v9 (by decide)).trans <| (V10_of m outs c main_v9 (by decide)).trans <|
    (V9_of m outs c main_v9 (by decide)).trans (V8_v9 m outs c)

theorem V1_v0 : V1 m c main_v0 = kConcat (m ((c : Thread nD τ).loc main_arg0)) (m ((c : Thread nD τ).loc main_arg1)) (m ((c : Thread nD τ).loc main_arg2)) (m ((c : Thread nD τ).loc main_arg3)) := h0_v0 (V0 m c)

theorem V3_v0 : V3 m c main_v0 = kConcat (m ((c : Thread nD τ).loc main_arg0)) (m ((c : Thread nD τ).loc main_arg1)) (m ((c : Thread nD τ).loc main_arg2)) (m ((c : Thread nD τ).loc main_arg3)) :=
  (V3_of m c main_v0 (by decide)).trans <| (V2_of m c main_v0 (by decide)).trans (V1_v0 m c)

theorem V2_v10 : V2 m c main_v10
    = kTake128 (kConcat (m ((c : Thread nD τ).loc main_arg0)) (m ((c : Thread nD τ).loc main_arg1)) (m ((c : Thread nD τ).loc main_arg2)) (m ((c : Thread nD τ).loc main_arg3))) (m ((c : Thread nD τ).loc main_arg4)) := by
  rw [show V2 m c main_v10 = _ from h0_1_v10 (V1 m c), V1_v0, V1_un m c (r := main_arg4) (by decide)]

theorem V3_v15 : V3 m c main_v15
    = kAgg128 (kConcat (m ((c : Thread nD τ).loc main_arg0)) (m ((c : Thread nD τ).loc main_arg1)) (m ((c : Thread nD τ).loc main_arg2)) (m ((c : Thread nD τ).loc main_arg3))) (kInv (m ((c : Thread nD τ).loc main_arg5)))
        (m ((c : Thread nD τ).loc main_arg4)) (m ((c : Thread nD τ).loc main_arg5)) := by
  rw [show V3 m c main_v15 = _ from h0_2_v15 (V2 m c), V2_v10, V2_v9, V2_un m c (r := main_arg5) (by decide)]
  rfl

theorem V3_v16 : V3 m c main_v16 = kBias (m ((c : Thread nD τ).loc main_arg8)) := by
  rw [show V3 m c main_v16 = _ from h0_2_v16 (V2 m c), V2_un m c (r := main_arg8) (by decide)]

theorem V3_arg6 : V3 m c main_arg6 = (m ((c : Thread nD τ).loc main_arg6)) := V3_un m c (by decide)
theorem V3_arg7 : V3 m c main_arg7 = (m ((c : Thread nD τ).loc main_arg7)) := V3_un m c (by decide)

theorem V4_v17 : V4 m outs c main_v17 = outs 4 main_v17 c := Function.update_self ..

theorem V6_v17 : V6 m outs c main_v17 = outs 4 main_v17 c :=
  (V6_of m outs c main_v17 (by decide)).trans <| (V5_of m outs c main_v17 (by decide)).trans (V4_v17 m outs c)

theorem V5_v18 : V5 m outs c main_v18 = kTake256 (outs 4 main_v17 c) (m ((c : Thread nD τ).loc main_arg4)) := by
  rw [show V5 m outs c main_v18 = _ from h1_v18 (V4 m outs c), V4_v17, V4_un m outs c (r := main_arg4) (by decide)]

theorem V6_v23 : V6 m outs c main_v23
    = kAgg256 (outs 4 main_v17 c) (kInv (m ((c : Thread nD τ).loc main_arg5))) (m ((c : Thread nD τ).loc main_arg4)) (m ((c : Thread nD τ).loc main_arg5)) := by
  rw [show V6 m outs c main_v23 = _ from h1_1_v23 (V5 m outs c), V5_v18, V5_v9, V5_un m outs c (r := main_arg5) (by decide)]
  rfl

theorem V6_v24 : V6 m outs c main_v24 = kBias (m ((c : Thread nD τ).loc main_arg11)) := by
  rw [show V6 m outs c main_v24 = _ from h1_1_v24 (V5 m outs c), V5_un m outs c (r := main_arg11) (by decide)]

theorem V6_arg9 : V6 m outs c main_arg9 = (m ((c : Thread nD τ).loc main_arg9)) := V6_un m outs c (by decide)
theorem V6_arg10 : V6 m outs c main_arg10 = (m ((c : Thread nD τ).loc main_arg10)) := V6_un m outs c (by decide)

theorem V7_v25 : V7 m outs c main_v25 = outs 7 main_v25 c := Function.update_self ..

theorem V9_v25 : V9 m outs c main_v25 = outs 7 main_v25 c :=
  (V9_of m outs c main_v25 (by decide)).trans <| (V8_of m outs c main_v25 (by decide)).trans (V7_v25 m outs c)

theorem V8_v26 : V8 m outs c main_v26 = kTake256 (outs 7 main_v25 c) (m ((c : Thread nD τ).loc main_arg4)) := by
  rw [show V8 m outs c main_v26 = _ from h2_v26 (V7 m outs c), V7_v25, V7_un m outs c (r := main_arg4) (by decide)]

theorem V9_v31 : V9 m outs c main_v31
    = kAgg256 (outs 7 main_v25 c) (kInv (m ((c : Thread nD τ).loc main_arg5))) (m ((c : Thread nD τ).loc main_arg4)) (m ((c : Thread nD τ).loc main_arg5)) := by
  rw [show V9 m outs c main_v31 = _ from h2_1_v31 (V8 m outs c), V8_v26, V8_v9, V8_un m outs c (r := main_arg5) (by decide)]
  rfl

theorem V9_v32 : V9 m outs c main_v32 = kBias (m ((c : Thread nD τ).loc main_arg14)) := by
  rw [show V9 m outs c main_v32 = _ from h2_1_v32 (V8 m outs c), V8_un m outs c (r := main_arg14) (by decide)]

theorem V9_arg12 : V9 m outs c main_arg12 = (m ((c : Thread nD τ).loc main_arg12)) := V9_un m outs c (by decide)
theorem V9_arg13 : V9 m outs c main_arg13 = (m ((c : Thread nD τ).loc main_arg13)) := V9_un m outs c (by decide)

theorem V10_v33 : V10 m outs c main_v33 = outs 10 main_v33 c := Function.update_self ..

theorem V12_v33 : V12 m outs c main_v33 = outs 10 main_v33 c :=
  (V12_of m outs c main_v33 (by decide)).trans <| (V11_of m outs c main_v33 (by decide)).trans (V10_v33 m outs c)

theorem V11_v34 : V11 m outs c main_v34 = kTake256 (outs 10 main_v33 c) (m ((c : Thread nD τ).loc main_arg4)) := by
  rw [show V11 m outs c main_v34 = _ from h3_v34 (V10 m outs c), V10_v33, V10_un m outs c (r := main_arg4) (by decide)]

theorem V12_v39 : V12 m outs c main_v39
    = kAgg256 (outs 10 main_v33 c) (kInv (m ((c : Thread nD τ).loc main_arg5))) (m ((c : Thread nD τ).loc main_arg4)) (m ((c : Thread nD τ).loc main_arg5)) := by
  rw [show V12 m outs c main_v39 = _ from h3_1_v39 (V11 m outs c), V11_v34, V11_v9, V11_un m outs c (r := main_arg5) (by decide)]
  rfl

theorem V12_v40 : V12 m outs c main_v40 = kBias (m ((c : Thread nD τ).loc main_arg17)) := by
  rw [show V12 m outs c main_v40 = _ from h3_1_v40 (V11 m outs c), V11_un m outs c (r := main_arg17) (by decide)]

theorem V12_arg15 : V12 m outs c main_arg15 = (m ((c : Thread nD τ).loc main_arg15)) := V12_un m outs c (by decide)
theorem V12_arg16 : V12 m outs c main_arg16 = (m ((c : Thread nD τ).loc main_arg16)) := V12_un m outs c (by decide)

theorem V13_v41 : V13 m outs c main_v41 = outs 13 main_v41 c := Function.update_self ..

theorem V14_v42 : V14 m outs c main_v42 = kTo3d (outs 13 main_v41 c) := by
  rw [show V14 m outs c main_v42 = _ from h4_v42 (V13 m outs c), V13_v41]

theorem V14_v43 : V14 m outs c main_v43 = kBias (m ((c : Thread nD τ).loc main_arg19)) := by
  rw [show V14 m outs c main_v43 = _ from h4_v43 (V13 m outs c), V13_un m outs c (r := main_arg19) (by decide)]

theorem V14_v44 : V14 m outs c main_v44 = kB2 (m ((c : Thread nD τ).loc main_arg21)) := by
  rw [show V14 m outs c main_v44 = _ from h4_v44 (V13 m outs c), V13_un m outs c (r := main_arg21) (by decide)]

theorem V14_arg18 : V14 m outs c main_arg18 = (m ((c : Thread nD τ).loc main_arg18)) := V14_un m outs c (by decide)
theorem V14_arg20 : V14 m outs c main_arg20 = (m ((c : Thread nD τ).loc main_arg20)) := V14_un m outs c (by decide)

theorem V15_v45 : V15 m outs c main_v45 = outs 15 main_v45 c := Function.update_self ..

theorem V16_v46 : V16 m outs c main_v46 = kFlat (outs 15 main_v45 c) := by
  rw [show V16 m outs c main_v46 = _ from h5_v46 (V15 m outs c), V15_v45]

theorem V16_v49 : V16 m outs c main_v49 = kMean (kFlat (outs 15 main_v45 c)) := by
  rw [show V16 m outs c main_v49 = _ from h5_v49 (V15 m outs c), V15_v45]

theorem V16_c : V16 m outs c main_c = constantI S_ 32 0#32 := h5_c (V15 m outs c)

theorem V17_v46 : V17 m outs c main_v46 = kFlat (outs 15 main_v45 c) :=
  (V17_of m outs c main_v46 (by decide)).trans (V16_v46 m outs c)

theorem V17_v49 : V17 m outs c main_v49 = kMean (kFlat (outs 15 main_v45 c)) :=
  (V17_of m outs c main_v49 (by decide)).trans (V16_v49 m outs c)

theorem V17_v50 : V17 m outs c main_v50 = kVar (kFlat (outs 15 main_v45 c)) (constantI S_ 32 0#32) := by
  rw [show V17 m outs c main_v50 = _ from h5_1_v50 (V16 m outs c), V16_v46, V16_c]

theorem V18_v65 : V18 m outs c main_v65
    = kNorm (kFlat (outs 15 main_v45 c)) (kMean (kFlat (outs 15 main_v45 c)))
        (kVar (kFlat (outs 15 main_v45 c)) (constantI S_ 32 0#32)) (m ((c : Thread nD τ).loc main_arg22)) (m ((c : Thread nD τ).loc main_arg23)) := by
  rw [show V18 m outs c main_v65 = _ from h5_2_v65 (V17 m outs c), V17_v46, V17_v49, V17_v50,
    V17_un m outs c (r := main_arg22) (by decide), V17_un m outs c (r := main_arg23) (by decide)]

theorem V22_v75 : V22 m outs c main_v75
    = kTail (outs 15 main_v45 c) (m ((c : Thread nD τ).loc main_arg22)) (m ((c : Thread nD τ).loc main_arg23)) (m ((c : Thread nD τ).loc main_arg24)) (m ((c : Thread nD τ).loc main_arg25))
        (m ((c : Thread nD τ).loc main_arg26)) (m ((c : Thread nD τ).loc main_arg27)) := by
  rw [show V22 m outs c main_v75 = _ from h5_6_v75 (V21 m outs c),
    show V21 m outs c main_v71 = _ from h5_5_v71 (V20 m outs c),
    show V20 m outs c main_v70 = _ from h5_4_v70 (V19 m outs c),
    show V19 m outs c main_v66 = _ from h5_3_v66 (V18 m outs c),
    V18_v65,
    V19_un m outs c (r := main_arg24) (by decide), V19_un m outs c (r := main_arg25) (by decide),
    V21_un m outs c (r := main_arg26) (by decide), V21_un m outs c (r := main_arg27) (by decide)]
  rfl

end Cert.KernelIdeal.Hand
-- ==== Proof.KI.CastIdx.lean ====
import proofs.«408721_j11879879540745_1_alg».proof.Proof.KI.HostRead
import Idealize.ShloMosaic.Lib.ValueLayout

noncomputable section

namespace Cert.KernelIdeal.Hand

open Cert.KernelIdeal Cert.KernelIdeal.Gen
open Idealize.ShloMosaic Idealize.ShloMosaic.ValueIdx

variable {F : FTy → Type} [FloatOps F]

/-- Each of these three reshapes keeps the row-major position, so the entry read keeps its remaining coordinates. -/
theorem kBias_apply (b : FVec F S256 .f32) (j : Fin 256) : kBias b (ix2 (0 : Fin 1) j) = b (ix1 j) :=
  shapeCast_a_1a_apply b _ (0 : Fin 1) j

theorem kB2_apply (b : FVec F S1 .f32) : kB2 b (ix2 (0 : Fin 1) (0 : Fin 1)) = b (ix1 (0 : Fin 1)) :=
  shapeCast_a_1a_apply b _ (0 : Fin 1) (0 : Fin 1)

theorem kFlat_apply (O : FVec F S8x1x256 .f32) (g : Fin 8) (r : Fin 256) :
    kFlat O (ix2 g r) = O (ix3 g (0 : Fin 1) r) :=
  shapeCast_apply O _ _ _ (by
    rw [Shape.rowMajor_val_three, Shape.rowMajor_val_two]
    show (g.val * 1 + 0) * 256 + r.val = g.val * 256 + r.val
    omega)

end Cert.KernelIdeal.Hand

end
-- ==== Proof.KI.SageLib.lean ====
import Idealize.ShloMosaic.PureOps.Ideal.Laws
import Idealize.ShloMosaic.Lib.ValueIdx

noncomputable section

namespace Cert

open Idealize.ShloMosaic Idealize.ShloMosaic.ValueIdx
open scoped BigOperators

/-- A rank-two index is determined by the values of its two coordinates. -/
theorem eq_ix2_of_val {n0 n1 : ℕ} {i : (⟨2, ![n0, n1]⟩ : Shape).Idx} {a : Fin n0} {b : Fin n1}
    (h0 : (i 0).val = a.val) (h1 : (i 1).val = b.val) : i = ix2 a b :=
  funext fun d => Fin.ext (match d with | ⟨0, _⟩ => h0 | ⟨1, _⟩ => h1)

/-- Likewise at rank three. -/
theorem eq_ix3_of_val {n0 n1 n2 : ℕ} {i : (⟨3, ![n0, n1, n2]⟩ : Shape).Idx} {a : Fin n0} {b : Fin n1} {c : Fin n2}
    (h0 : (i 0).val = a.val) (h1 : (i 1).val = b.val) (h2 : (i 2).val = c.val) : i = ix3 a b c :=
  funext fun d => Fin.ext (match d with | ⟨0, _⟩ => h0 | ⟨1, _⟩ => h1 | ⟨2, _⟩ => h2)

theorem zeroOrigin : (![0, 0] : Fin 2 → Nat) = fun _ => 0 := funext fun a => by fin_cases a <;> rfl

/-- The rows-by-columns contraction: at entry (p, q) the left operand is read along row p and the right one down column q. -/
theorem plain_sum {M K N : ℕ} (x : (⟨2, ![M, K]⟩ : Shape).Idx → EReal) (w : (⟨2, ![K, N]⟩ : Shape).Idx → EReal) (p : Fin M) (q : Fin N) :
    ∑ k : (DotDims.plain M K N).contr.Idx, x ((DotDims.plain M K N).lhsIdx (ix2 p q) k) * w ((DotDims.plain M K N).rhsIdx (ix2 p q) k)
      = ∑ k : Fin K, x (ix2 p k) * w (ix2 k q) := by
  rw [← Equiv.sum_comp (contrEquiv1 (DotDims.plain M K N) K rfl rfl).symm]
  exact Finset.sum_congr rfl fun k _ => congrArg₂ (x · * w ·) (eq_ix2_of_val rfl rfl) (eq_ix2_of_val rfl rfl)

/-- A block product of that kind into the zero splat is that sum, -/
theorem plainProduct {M K N : ℕ} {φ₁ φ₂ : FTy} (D : DotDims ⟨2, ![M, K]⟩ ⟨2, ![K, N]⟩ ⟨2, ![M, N]⟩) (hD : D = .plain M K N)
    (x : FVec Ideal ⟨2, ![M, K]⟩ φ₁) (w : FVec Ideal ⟨2, ![K, N]⟩ φ₂) (p : Fin M) (q : Fin N) :
    matmul D none x w (constant (F := Ideal) ⟨2, ![M, N]⟩ .f32 0x00000000#32) (ix2 p q)
      = ∑ k : Fin K, x (ix2 p k) * w (ix2 k q) := by
  subst hD
  simp only [matmul]
  rw [Ideal.matmul_constant_zero_apply]
  exact plain_sum x w p q

/-- and so is the host's product. -/
theorem plainDot {M K N : ℕ} {φ₁ φ₂ : FTy} (D : DotDims ⟨2, ![M, K]⟩ ⟨2, ![K, N]⟩ ⟨2, ![M, N]⟩) (hD : D = .plain M K N)
    (x : FVec Ideal ⟨2, ![M, K]⟩ φ₁) (w : FVec Ideal ⟨2, ![K, N]⟩ φ₂) (p : Fin M) (q : Fin N) :
    (Host.dotGeneral (F := Ideal) D none x w : FVec Ideal ⟨2, ![M, N]⟩ .f32) (ix2 p q) = ∑ k : Fin K, x (ix2 p k) * w (ix2 k q) := by
  subst hD
  simp only [Host.dotGeneral]
  rw [Ideal.dotGeneral_apply]
  exact plain_sum x w p q

/-- A stack of G matrices, each R x K, by one K x N matrix: the last axis of the stack is contracted. -/
def stackDims (G R K N : ℕ) : DotDims ⟨3, ![G, R, K]⟩ ⟨2, ![K, N]⟩ ⟨3, ![G, R, N]⟩ where
  lhsContracting := [2]
  rhsContracting := [0]
  lhsNonContracting := [0, 1]
  rhsNonContracting := [1]
  lhsBatch := []
  rhsBatch := []
  wf := ⟨rfl, by simp, rfl, by simp, by simp, by simp, by simp [List.finRange], by simpa [List.finRange] using List.Perm.swap 0 1 [],
    rfl, Nat.succ_pos 2, fun b => by fin_cases b <;> rfl⟩

/-- The host's product of a stack by a matrix at entry (g, r, c): row r of matrix g against column c. -/
theorem stackDot {G R K N : ℕ} {φ₁ φ₂ : FTy} (D : DotDims ⟨3, ![G, R, K]⟩ ⟨2, ![K, N]⟩ ⟨3, ![G, R, N]⟩) (hD : D = stackDims G R K N)
    (x : FVec Ideal ⟨3, ![G, R, K]⟩ φ₁) (w : FVec Ideal ⟨2, ![K, N]⟩ φ₂) (g : Fin G) (r : Fin R) (c : Fin N) :
    (Host.dotGeneral (F := Ideal) D none x w : FVec Ideal ⟨3, ![G, R, N]⟩ .f32) (ix3 g r c) = ∑ k : Fin K, x (ix3 g r k) * w (ix2 k c) := by
  subst hD
  simp only [Host.dotGeneral]
  rw [Ideal.dotGeneral_apply, ← Equiv.sum_comp (contrEquiv1 (stackDims G R K N) K rfl rfl).symm]
  exact Finset.sum_congr rfl fun k _ => congrArg₂ (x · * w ·) (eq_ix3_of_val rfl rfl rfl) (eq_ix2_of_val rfl rfl)

end Cert

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

def sage128 (A H : (⟨2, ![65536, 128]⟩ : Shape).Idx → EReal) (Wl Wr : (⟨2, ![128, 256]⟩ : Shape).Idx → EReal)
    (b : (⟨2, ![1, 256]⟩ : Shape).Idx → EReal) : (⟨2, ![65536, 256]⟩ : Shape).Idx → EReal :=
  fun i => max ((∑ k : Fin 128, A (ix2 (i 0 : Fin 65536) k) * Wl (ix2 k (i 1 : Fin 256)))
      + (∑ k : Fin 128, H (ix2 (i 0 : Fin 65536) k) * Wr (ix2 k (i 1 : Fin 256)))
      + b (ix2 (0 : Fin 1) (i 1 : Fin 256))) 0

def sage256 (A H : (⟨2, ![65536, 256]⟩ : Shape).Idx → EReal) (Wl Wr : (⟨2, ![256, 256]⟩ : Shape).Idx → EReal)
    (b : (⟨2, ![1, 256]⟩ : Shape).Idx → EReal) : (⟨2, ![65536, 256]⟩ : Shape).Idx → EReal :=
  fun i => max ((∑ k : Fin 256, A (ix2 (i 0 : Fin 65536) k) * Wl (ix2 k (i 1 : Fin 256)))
      + (∑ k : Fin 256, H (ix2 (i 0 : Fin 65536) k) * Wr (ix2 k (i 1 : Fin 256)))
      + b (ix2 (0 : Fin 1) (i 1 : Fin 256))) 0

def mlpHead (X : (⟨3, ![8, 256, 8192]⟩ : Shape).Idx → EReal) (W1 : (⟨2, ![8192, 256]⟩ : Shape).Idx → EReal)
    (b1 : (⟨2, ![1, 256]⟩ : Shape).Idx → EReal) (W2 : (⟨2, ![256, 1]⟩ : Shape).Idx → EReal)
    (b2 : (⟨2, ![1, 1]⟩ : Shape).Idx → EReal) : (⟨3, ![8, 1, 256]⟩ : Shape).Idx → EReal :=
  fun i => (∑ k : Fin 256,
      max ((∑ m : Fin 8192, X (ix3 (i 0 : Fin 8) (i 2 : Fin 256) m) * W1 (ix2 m k)) + b1 (ix2 (0 : Fin 1) k)) 0
        * W2 (ix2 k (0 : Fin 1)))
    + b2 (ix2 (0 : Fin 1) (0 : Fin 1))

end Cert.Spec

end
-- ==== Proof.KI.ValSage0.lean ====
import proofs.«408721_j11879879540745_1_alg».proof.Proof.KI.Reg0
import proofs.«408721_j11879879540745_1_alg».proof.Proof.KI.SageLib
import proofs.«408721_j11879879540745_1_alg».proof.Proof.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

theorem blockIndex_r0 : ∀ t : Fin cfg0.N, win0_0.index t (0 : Fin 2) = t.val ∧ win0_0.index t (1 : Fin 2) = 0
    ∧ win0_1.index t (0 : Fin 2) = t.val ∧ win0_1.index t (1 : Fin 2) = 0
    ∧ (∀ a, win0_2.index t a = 0) ∧ (∀ a, win0_3.index t a = 0) ∧ (∀ a, win0_4.index t a = 0)
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Point `t` reads rows 4096·t + p of both feature arrays and the weights and bias whole: it writes back block `t` of the dense step. -/
theorem flushed_r0_eq (c : Dev nD) (t : Fin cfg0.N) :
    (dat0 (F := Ideal) V c).flushed 5 t = ((cfg0.win 5).blk t).view.read (Elt Ideal)
      (Cert.Spec.sage128 (V c main_v15) (V c main_v0) (V c main_arg6) (V c main_arg7) (V c main_v16)) := by
  obtain ⟨a0, a1, b0, b1, c', d, f, g0, g1⟩ := blockIndex_r0 t
  show (cfg0.win 5).cut (grid0.coords t) ((dat0 V c).after 5 t) = _
  rw [after0_5]
  unfold out0_5
  rw [View.canon_unit_zero zeroOrigin]
  rw [View.ld_unit_zero zeroOrigin, View.ld_unit_zero zeroOrigin, View.ld_unit_zero zeroOrigin, View.ld_unit_zero zeroOrigin,
    View.ld_unit_zero zeroOrigin]
  funext j
  obtain ⟨p, q, rfl⟩ : ∃ (p : Fin 4096) (q : Fin 256), j = ix2 p q := ⟨j 0, j 1, eq_ix2 j⟩
  have hr : 4096 * t.val + p.val < 65536 := by have := Nat.lt_of_lt_of_eq t.isLt N_0; omega
  show k0_pay1 (F := Ideal) _ _ _ _ _ (ix2 p q) = Cert.Spec.sage128 _ _ _ _ _ (((cfg0.win 5).blk t).view.emb (ix2 p q))
  rw [show ((cfg0.win 5).blk t).view.emb (ix2 p q) = ix2 ⟨_, hr⟩ q from eq_ix2_of_val
    (show win0_5.index t (0 : Fin 2) * 4096 + 1 * p.val = 4096 * t.val + p.val by rw [g0]; omega) (win0_5.rect_emb_val_of_index_zero t 1 g1 _)]
  unfold k0_pay1 Cert.Spec.sage128
  rw [maximumf_apply, addf_apply, addf_apply, broadcast_apply, plainProduct _ (by rfl), plainProduct _ (by rfl), broadcastTo_1b_ab_apply]
  simp only [truncf_apply, shapeCast_self]
  rw [show Scalar.ofBits (F := Ideal) .f32 0x00000000#32 = (0 : EReal) from Ideal.ofBits_zero_f32]
  have h0 : ∀ k, iblk0 V c 0 t (ix2 p k) = V c main_v15 (ix2 ⟨_, hr⟩ k) := fun k => congrArg (V c main_v15) (eq_ix2_of_val
    (show win0_0.index t (0 : Fin 2) * 4096 + 1 * p.val = 4096 * t.val + p.val by rw [a0]; omega) (win0_0.rect_emb_val_of_index_zero t 1 a1 _))
  have h1 : ∀ k, iblk0 V c 1 t (ix2 p k) = V c main_v0 (ix2 ⟨_, hr⟩ k) := fun k => congrArg (V c main_v0) (eq_ix2_of_val
    (show win0_1.index t (0 : Fin 2) * 4096 + 1 * p.val = 4096 * t.val + p.val by rw [b0]; omega) (win0_1.rect_emb_val_of_index_zero t 1 b1 _))
  have h2 : iblk0 V c 2 t = V c main_arg6 := funext fun y => congrArg (V c main_arg6) (funext fun a =>
    Fin.ext (win0_2.rect_emb_val_of_index_zero t a (c' a) y))
  have h3 : iblk0 V c 3 t = V c main_arg7 := funext fun y => congrArg (V c main_arg7) (funext fun a =>
    Fin.ext (win0_3.rect_emb_val_of_index_zero t a (d a) y))
  have h4 : iblk0 V c 4 t = V c main_v16 := funext fun y => congrArg (V c main_v16) (funext fun a =>
    Fin.ext (win0_4.rect_emb_val_of_index_zero t a (f a) y))
  simp only [h0, h1, h2, h3, h4]

/-- The sixteen row blocks tile the output: row `r` lies in the block of the point whose block index is `r / 4096`. -/
theorem covered_r0 (i : S65536x256.Idx) : ∃ t : Fin cfg0.N, (cfg0.win 5).flush t = true ∧ i ∈ ((cfg0.win 5).blk t).view.set := by
  have hi0 := idx2_lt0 i
  have hi1 := idx2_lt1 i
  obtain ⟨t, ht⟩ : ∃ t : Fin cfg0.N, t.val = (i 0).val / 4096 := ⟨⟨_, by rw [show cfg0.N = 16 from N_0]; omega⟩, rfl⟩
  obtain ⟨-, -, -, -, -, -, -, g0, g1⟩ := blockIndex_r0 t
  refine ⟨t, flush0_5 t, ?_⟩
  show i ∈ ((View.whole main_v17).slice (win0_5.rect t)).set
  rw [View.set_slice_whole, Rect.mem_set_unit]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

theorem arr0 (c : Dev nD) : (dat0 (F := Ideal) V c).arrAt 5 cfg0.N
    = Cert.Spec.sage128 (V c main_v15) (V c main_v0) (V c main_arg6) (V c main_arg7) (V c main_v16) :=
  (dat0 (F := Ideal) V c).arrAt_eq_of_cover 5 _ (fun t _ => flushed_r0_eq V c t) covered_r0

end Cert.KernelIdeal.Hand

end
-- ==== Proof.KI.ValSage1.lean ====
import proofs.«408721_j11879879540745_1_alg».proof.Proof.KI.Reg1
import proofs.«408721_j11879879540745_1_alg».proof.Proof.KI.SageLib
import proofs.«408721_j11879879540745_1_alg».proof.Proof.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

theorem blockIndex_r1 : ∀ t : Fin cfg1.N, win1_0.index t (0 : Fin 2) = t.val ∧ win1_0.index t (1 : Fin 2) = 0
    ∧ win1_1.index t (0 : Fin 2) = t.val ∧ win1_1.index t (1 : Fin 2) = 0
    ∧ (∀ a, win1_2.index t a = 0) ∧ (∀ a, win1_3.index t a = 0) ∧ (∀ a, win1_4.index t a = 0)
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Point `t` reads rows 4096·t + p of both feature arrays and the weights and bias whole: it writes back block `t` of the dense step. -/
theorem flushed_r1_eq (c : Dev nD) (t : Fin cfg1.N) :
    (dat1 (F := Ideal) V c).flushed 5 t = ((cfg1.win 5).blk t).view.read (Elt Ideal)
      (Cert.Spec.sage256 (V c main_v23) (V c main_v17) (V c main_arg9) (V c main_arg10) (V c main_v24)) := by
  obtain ⟨a0, a1, b0, b1, c', d, f, g0, g1⟩ := blockIndex_r1 t
  show (cfg1.win 5).cut (grid1.coords t) ((dat1 V c).after 5 t) = _
  rw [after1_5]
  unfold out1_5
  rw [View.canon_unit_zero zeroOrigin]
  rw [View.ld_unit_zero zeroOrigin, View.ld_unit_zero zeroOrigin, View.ld_unit_zero zeroOrigin, View.ld_unit_zero zeroOrigin,
    View.ld_unit_zero zeroOrigin]
  funext j
  obtain ⟨p, q, rfl⟩ : ∃ (p : Fin 4096) (q : Fin 256), j = ix2 p q := ⟨j 0, j 1, eq_ix2 j⟩
  have hr : 4096 * t.val + p.val < 65536 := by have := Nat.lt_of_lt_of_eq t.isLt N_1; omega
  show k1_pay1 (F := Ideal) _ _ _ _ _ (ix2 p q) = Cert.Spec.sage256 _ _ _ _ _ (((cfg1.win 5).blk t).view.emb (ix2 p q))
  rw [show ((cfg1.win 5).blk t).view.emb (ix2 p q) = ix2 ⟨_, hr⟩ q from eq_ix2_of_val
    (show win1_5.index t (0 : Fin 2) * 4096 + 1 * p.val = 4096 * t.val + p.val by rw [g0]; omega) (win1_5.rect_emb_val_of_index_zero t 1 g1 _)]
  unfold k1_pay1 Cert.Spec.sage256
  rw [maximumf_apply, addf_apply, addf_apply, broadcast_apply, plainProduct _ (by rfl), plainProduct _ (by rfl), broadcastTo_1b_ab_apply]
  simp only [truncf_apply, shapeCast_self]
  rw [show Scalar.ofBits (F := Ideal) .f32 0x00000000#32 = (0 : EReal) from Ideal.ofBits_zero_f32]
  have h0 : ∀ k, iblk1 V c 0 t (ix2 p k) = V c main_v23 (ix2 ⟨_, hr⟩ k) := fun k => congrArg (V c main_v23) (eq_ix2_of_val
    (show win1_0.index t (0 : Fin 2) * 4096 + 1 * p.val = 4096 * t.val + p.val by rw [a0]; omega) (win1_0.rect_emb_val_of_index_zero t 1 a1 _))
  have h1 : ∀ k, iblk1 V c 1 t (ix2 p k) = V c main_v17 (ix2 ⟨_, hr⟩ k) := fun k => congrArg (V c main_v17) (eq_ix2_of_val
    (show win1_1.index t (0 : Fin 2) * 4096 + 1 * p.val = 4096 * t.val + p.val by rw [b0]; omega) (win1_1.rect_emb_val_of_index_zero t 1 b1 _))
  have h2 : iblk1 V c 2 t = V c main_arg9 := funext fun y => congrArg (V c main_arg9) (funext fun a =>
    Fin.ext (win1_2.rect_emb_val_of_index_zero t a (c' a) y))
  have h3 : iblk1 V c 3 t = V c main_arg10 := funext fun y => congrArg (V c main_arg10) (funext fun a =>
    Fin.ext (win1_3.rect_emb_val_of_index_zero t a (d a) y))
  have h4 : iblk1 V c 4 t = V c main_v24 := funext fun y => congrArg (V c main_v24) (funext fun a =>
    Fin.ext (win1_4.rect_emb_val_of_index_zero t a (f a) y))
  simp only [h0, h1, h2, h3, h4]

/-- The sixteen row blocks tile the output: row `r` lies in the block of the point whose block index is `r / 4096`. -/
theorem covered_r1 (i : S65536x256.Idx) : ∃ t : Fin cfg1.N, (cfg1.win 5).flush t = true ∧ i ∈ ((cfg1.win 5).blk t).view.set := by
  have hi0 := idx2_lt0 i
  have hi1 := idx2_lt1 i
  obtain ⟨t, ht⟩ : ∃ t : Fin cfg1.N, t.val = (i 0).val / 4096 := ⟨⟨_, by rw [show cfg1.N = 16 from N_1]; omega⟩, rfl⟩
  obtain ⟨-, -, -, -, -, -, -, g0, g1⟩ := blockIndex_r1 t
  refine ⟨t, flush1_5 t, ?_⟩
  show i ∈ ((View.whole main_v25).slice (win1_5.rect t)).set
  rw [View.set_slice_whole, Rect.mem_set_unit]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 256 ≤ (i 1).val ∧ (i 1).val < win1_5.index t (1 : Fin 2) * 256 + 256; omega

theorem arr1 (c : Dev nD) : (dat1 (F := Ideal) V c).arrAt 5 cfg1.N
    = Cert.Spec.sage256 (V c main_v23) (V c main_v17) (V c main_arg9) (V c main_arg10) (V c main_v24) :=
  (dat1 (F := Ideal) V c).arrAt_eq_of_cover 5 _ (fun t _ => flushed_r1_eq V c t) covered_r1

end Cert.KernelIdeal.Hand

end
-- ==== Proof.KI.ValSage2.lean ====
import proofs.«408721_j11879879540745_1_alg».proof.Proof.KI.Reg2
import proofs.«408721_j11879879540745_1_alg».proof.Proof.KI.SageLib
import proofs.«408721_j11879879540745_1_alg».proof.Proof.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

theorem blockIndex_r2 : ∀ t : Fin cfg2.N, win2_0.index t (0 : Fin 2) = t.val ∧ win2_0.index t (1 : Fin 2) = 0
    ∧ win2_1.index t (0 : Fin 2) = t.val ∧ win2_1.index t (1 : Fin 2) = 0
    ∧ (∀ a, win2_2.index t a = 0) ∧ (∀ a, win2_3.index t a = 0) ∧ (∀ a, win2_4.index t a = 0)
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Point `t` reads rows 4096·t + p of both feature arrays and the weights and bias whole: it writes back block `t` of the dense step. -/
theorem flushed_r2_eq (c : Dev nD) (t : Fin cfg2.N) :
    (dat2 (F := Ideal) V c).flushed 5 t = ((cfg2.win 5).blk t).view.read (Elt Ideal)
      (Cert.Spec.sage256 (V c main_v31) (V c main_v25) (V c main_arg12) (V c main_arg13) (V c main_v32)) := by
  obtain ⟨a0, a1, b0, b1, c', d, f, g0, g1⟩ := blockIndex_r2 t
  show (cfg2.win 5).cut (grid2.coords t) ((dat2 V c).after 5 t) = _
  rw [after2_5]
  unfold out2_5
  rw [View.canon_unit_zero zeroOrigin]
  rw [View.ld_unit_zero zeroOrigin, View.ld_unit_zero zeroOrigin, View.ld_unit_zero zeroOrigin, View.ld_unit_zero zeroOrigin,
    View.ld_unit_zero zeroOrigin]
  funext j
  obtain ⟨p, q, rfl⟩ : ∃ (p : Fin 4096) (q : Fin 256), j = ix2 p q := ⟨j 0, j 1, eq_ix2 j⟩
  have hr : 4096 * t.val + p.val < 65536 := by have := Nat.lt_of_lt_of_eq t.isLt N_2; omega
  show k2_pay1 (F := Ideal) _ _ _ _ _ (ix2 p q) = Cert.Spec.sage256 _ _ _ _ _ (((cfg2.win 5).blk t).view.emb (ix2 p q))
  rw [show ((cfg2.win 5).blk t).view.emb (ix2 p q) = ix2 ⟨_, hr⟩ q from eq_ix2_of_val
    (show win2_5.index t (0 : Fin 2) * 4096 + 1 * p.val = 4096 * t.val + p.val by rw [g0]; omega) (win2_5.rect_emb_val_of_index_zero t 1 g1 _)]
  unfold k2_pay1 Cert.Spec.sage256
  rw [maximumf_apply, addf_apply, addf_apply, broadcast_apply, plainProduct _ (by rfl), plainProduct _ (by rfl), broadcastTo_1b_ab_apply]
  simp only [truncf_apply, shapeCast_self]
  rw [show Scalar.ofBits (F := Ideal) .f32 0x00000000#32 = (0 : EReal) from Ideal.ofBits_zero_f32]
  have h0 : ∀ k, iblk2 V c 0 t (ix2 p k) = V c main_v31 (ix2 ⟨_, hr⟩ k) := fun k => congrArg (V c main_v31) (eq_ix2_of_val
    (show win2_0.index t (0 : Fin 2) * 4096 + 1 * p.val = 4096 * t.val + p.val by rw [a0]; omega) (win2_0.rect_emb_val_of_index_zero t 1 a1 _))
  have h1 : ∀ k, iblk2 V c 1 t (ix2 p k) = V c main_v25 (ix2 ⟨_, hr⟩ k) := fun k => congrArg (V c main_v25) (eq_ix2_of_val
    (show win2_1.index t (0 : Fin 2) * 4096 + 1 * p.val = 4096 * t.val + p.val by rw [b0]; omega) (win2_1.rect_emb_val_of_index_zero t 1 b1 _))
  have h2 : iblk2 V c 2 t = V c main_arg12 := funext fun y => congrArg (V c main_arg12) (funext fun a =>
    Fin.ext (win2_2.rect_emb_val_of_index_zero t a (c' a) y))
  have h3 : iblk2 V c 3 t = V c main_arg13 := funext fun y => congrArg (V c main_arg13) (funext fun a =>
    Fin.ext (win2_3.rect_emb_val_of_index_zero t a (d a) y))
  have h4 : iblk2 V c 4 t = V c main_v32 := funext fun y => congrArg (V c main_v32) (funext fun a =>
    Fin.ext (win2_4.rect_emb_val_of_index_zero t a (f a) y))
  simp only [h0, h1, h2, h3, h4]

/-- The sixteen row blocks tile the output: row `r` lies in the block of the point whose block index is `r / 4096`. -/
theorem covered_r2 (i : S65536x256.Idx) : ∃ t : Fin cfg2.N, (cfg2.win 5).flush t = true ∧ i ∈ ((cfg2.win 5).blk t).view.set := by
  have hi0 := idx2_lt0 i
  have hi1 := idx2_lt1 i
  obtain ⟨t, ht⟩ : ∃ t : Fin cfg2.N, t.val = (i 0).val / 4096 := ⟨⟨_, by rw [show cfg2.N = 16 from N_2]; omega⟩, rfl⟩
  obtain ⟨-, -, -, -, -, -, -, g0, g1⟩ := blockIndex_r2 t
  refine ⟨t, flush2_5 t, ?_⟩
  show i ∈ ((View.whole main_v33).slice (win2_5.rect t)).set
  rw [View.set_slice_whole, Rect.mem_set_unit]
  intro a
  match a with
  | ⟨0, _⟩ => show win2_5.index t (0 : Fin 2) * 4096 ≤ (i 0).val ∧ (i 0).val < win2_5.index t (0 : Fin 2) * 4096 + 4096; omega
  | ⟨1, _⟩ => show win2_5.index t (1 : Fin 2) * 256 ≤ (i 1).val ∧ (i 1).val < win2_5.index t (1 : Fin 2) * 256 + 256; omega

theorem arr2 (c : Dev nD) : (dat2 (F := Ideal) V c).arrAt 5 cfg2.N
    = Cert.Spec.sage256 (V c main_v31) (V c main_v25) (V c main_arg12) (V c main_arg13) (V c main_v32) :=
  (dat2 (F := Ideal) V c).arrAt_eq_of_cover 5 _ (fun t _ => flushed_r2_eq V c t) covered_r2

end Cert.KernelIdeal.Hand

end
-- ==== Proof.KI.ValSage3.lean ====
import proofs.«408721_j11879879540745_1_alg».proof.Proof.KI.Reg3
import proofs.«408721_j11879879540745_1_alg».proof.Proof.KI.SageLib
import proofs.«408721_j11879879540745_1_alg».proof.Proof.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

theorem blockIndex_r3 : ∀ t : Fin cfg3.N, win3_0.index t (0 : Fin 2) = t.val ∧ win3_0.index t (1 : Fin 2) = 0
    ∧ win3_1.index t (0 : Fin 2) = t.val ∧ win3_1.index t (1 : Fin 2) = 0
    ∧ (∀ a, win3_2.index t a = 0) ∧ (∀ a, win3_3.index t a = 0) ∧ (∀ a, win3_4.index t a = 0)
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Point `t` reads rows 4096·t + p of both feature arrays and the weights and bias whole: it writes back block `t` of the dense step. -/
theorem flushed_r3_eq (c : Dev nD) (t : Fin cfg3.N) :
    (dat3 (F := Ideal) V c).flushed 5 t = ((cfg3.win 5).blk t).view.read (Elt Ideal)
      (Cert.Spec.sage256 (V c main_v39) (V c main_v33) (V c main_arg15) (V c main_arg16) (V c main_v40)) := by
  obtain ⟨a0, a1, b0, b1, c', d, f, g0, g1⟩ := blockIndex_r3 t
  show (cfg3.win 5).cut (grid3.coords t) ((dat3 V c).after 5 t) = _
  rw [after3_5]
  unfold out3_5
  rw [View.canon_unit_zero zeroOrigin]
  rw [View.ld_unit_zero zeroOrigin, View.ld_unit_zero zeroOrigin, View.ld_unit_zero zeroOrigin, View.ld_unit_zero zeroOrigin,
    View.ld_unit_zero zeroOrigin]
  funext j
  obtain ⟨p, q, rfl⟩ : ∃ (p : Fin 4096) (q : Fin 256), j = ix2 p q := ⟨j 0, j 1, eq_ix2 j⟩
  have hr : 4096 * t.val + p.val < 65536 := by have := Nat.lt_of_lt_of_eq t.isLt N_3; omega
  show k3_pay1 (F := Ideal) _ _ _ _ _ (ix2 p q) = Cert.Spec.sage256 _ _ _ _ _ (((cfg3.win 5).blk t).view.emb (ix2 p q))
  rw [show ((cfg3.win 5).blk t).view.emb (ix2 p q) = ix2 ⟨_, hr⟩ q from eq_ix2_of_val
    (show win3_5.index t (0 : Fin 2) * 4096 + 1 * p.val = 4096 * t.val + p.val by rw [g0]; omega) (win3_5.rect_emb_val_of_index_zero t 1 g1 _)]
  unfold k3_pay1 Cert.Spec.sage256
  rw [maximumf_apply, addf_apply, addf_apply, broadcast_apply, plainProduct _ (by rfl), plainProduct _ (by rfl), broadcastTo_1b_ab_apply]
  simp only [truncf_apply, shapeCast_self]
  rw [show Scalar.ofBits (F := Ideal) .f32 0x00000000#32 = (0 : EReal) from Ideal.ofBits_zero_f32]
  have h0 : ∀ k, iblk3 V c 0 t (ix2 p k) = V c main_v39 (ix2 ⟨_, hr⟩ k) := fun k => congrArg (V c main_v39) (eq_ix2_of_val
    (show win3_0.index t (0 : Fin 2) * 4096 + 1 * p.val = 4096 * t.val + p.val by rw [a0]; omega) (win3_0.rect_emb_val_of_index_zero t 1 a1 _))
  have h1 : ∀ k, iblk3 V c 1 t (ix2 p k) = V c main_v33 (ix2 ⟨_, hr⟩ k) := fun k => congrArg (V c main_v33) (eq_ix2_of_val
    (show win3_1.index t (0 : Fin 2) * 4096 + 1 * p.val = 4096 * t.val + p.val by rw [b0]; omega) (win3_1.rect_emb_val_of_index_zero t 1 b1 _))
  have h2 : iblk3 V c 2 t = V c main_arg15 := funext fun y => congrArg (V c main_arg15) (funext fun a =>
    Fin.ext (win3_2.rect_emb_val_of_index_zero t a (c' a) y))
  have h3 : iblk3 V c 3 t = V c main_arg16 := funext fun y => congrArg (V c main_arg16) (funext fun a =>
    Fin.ext (win3_3.rect_emb_val_of_index_zero t a (d a) y))
  have h4 : iblk3 V c 4 t = V c main_v40 := funext fun y => congrArg (V c main_v40) (funext fun a =>
    Fin.ext (win3_4.rect_emb_val_of_index_zero t a (f a) y))
  simp only [h0, h1, h2, h3, h4]

/-- The sixteen row blocks tile the output: row `r` lies in the block of the point whose block index is `r / 4096`. -/
theorem covered_r3 (i : S65536x256.Idx) : ∃ t : Fin cfg3.N, (cfg3.win 5).flush t = true ∧ i ∈ ((cfg3.win 5).blk t).view.set := by
  have hi0 := idx2_lt0 i
  have hi1 := idx2_lt1 i
  obtain ⟨t, ht⟩ : ∃ t : Fin cfg3.N, t.val = (i 0).val / 4096 := ⟨⟨_, by rw [show cfg3.N = 16 from N_3]; omega⟩, rfl⟩
  obtain ⟨-, -, -, -, -, -, -, g0, g1⟩ := blockIndex_r3 t
  refine ⟨t, flush3_5 t, ?_⟩
  show i ∈ ((View.whole main_v41).slice (win3_5.rect t)).set
  rw [View.set_slice_whole, Rect.mem_set_unit]
  intro a
  match a with
  | ⟨0, _⟩ => show win3_5.index t (0 : Fin 2) * 4096 ≤ (i 0).val ∧ (i 0).val < win3_5.index t (0 : Fin 2) * 4096 + 4096; omega
  | ⟨1, _⟩ => show win3_5.index t (1 : Fin 2) * 256 ≤ (i 1).val ∧ (i 1).val < win3_5.index t (1 : Fin 2) * 256 + 256; omega

theorem arr3 (c : Dev nD) : (dat3 (F := Ideal) V c).arrAt 5 cfg3.N
    = Cert.Spec.sage256 (V c main_v39) (V c main_v33) (V c main_arg15) (V c main_arg16) (V c main_v40) :=
  (dat3 (F := Ideal) V c).arrAt_eq_of_cover 5 _ (fun t _ => flushed_r3_eq V c t) covered_r3

end Cert.KernelIdeal.Hand

end
-- ==== Proof.KI.ValMlp.lean ====
import proofs.«408721_j11879879540745_1_alg».proof.Proof.KI.Reg4
import proofs.«408721_j11879879540745_1_alg».proof.Proof.KI.SageLib
import proofs.«408721_j11879879540745_1_alg».proof.Proof.Spec
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- A 256 x 1 column and the vector of its 256 rows have the same row-major positions. -/
theorem shapeCast_col_apply {α : Type} (x : S256x1.Idx → α) (h : S256x1.ShapeCasts S256) (k : Fin 256) :
    shapeCast S256 x h (ix1 k) = x (ix2 k (0 : Fin 1)) :=
  shapeCast_apply x h _ _ (by
    rw [Shape.rowMajor_val_two, Shape.rowMajor_val_one]
    show k.val * 1 + 0 = k.val
    omega)

/-- Two leading unit axes do not move a row-major position. -/
theorem shapeCast_row3_apply {α : Type} (x : S256.Idx → α) (h : S256.ShapeCasts S1x1x256) (u v : Fin 1) (r : Fin 256) :
    shapeCast S1x1x256 x h (ix3 u v r) = x (ix1 r) :=
  shapeCast_apply x h _ _ (by
    rw [Shape.rowMajor_val_three, Shape.rowMajor_val_one]
    show r.val = (u.val * 1 + v.val) * 256 + r.val
    omega)

/-- Reducing the column axis by addition sums each row. -/
theorem laneSum_apply (src : FVec Ideal S256x256 .f32) (h : S256x256.Reduces [1] S256) (hφ : FKind.Formats .f32)
    (hacc : (0x00000000#32 : BitVec 32) = 0x00000000#32) (r : Fin 256) :
    multiReduction .add [1] S256 src 0x00000000#32 h hφ hacc (ix1 r) = ∑ k : Fin 256, src (ix2 r k) :=
  (Ideal.multiReduction_add_single src 0x00000000#32 h hφ hacc (ix1 r)).trans
    (Finset.sum_congr rfl fun k _ => congrArg src (eq_ix2_of_val rfl rfl))

/-- The stored value at row r: the hidden layer's rectified affine image of slab row r, weighted by the second layer's column, plus its bias. -/
theorem pay4_apply (x0 : Vec Ideal S1x256x8192 .f32) (x1 : Vec Ideal S8192x256 .f32) (x2 : Vec Ideal S1x256 .f32)
    (x3 : Vec Ideal S256x1 .f32) (x4 : Vec Ideal S1x1 .f32) (u v : Fin 1) (r : Fin 256) :
    k4_pay1 (F := Ideal) x0 x1 x2 x3 x4 (ix3 u v r)
      = (∑ k : Fin 256, max ((∑ m : Fin 8192, x0 (ix3 (0 : Fin 1) r m) * x1 (ix2 m k)) + x2 (ix2 (0 : Fin 1) k)) 0
            * x3 (ix2 k (0 : Fin 1)))
        + x4 (ix2 (0 : Fin 1) (0 : Fin 1)) := by
  unfold k4_pay1
  dsimp only
  rw [shapeCast_row3_apply, addf_apply, broadcast_apply, laneSum_apply]
  refine congrArg₂ (· + ·) (Finset.sum_congr rfl fun k _ => ?_) ?_
  · rw [mulf_apply, maximumf_apply, addf_apply, broadcast_apply, plainProduct _ (by rfl), broadcastTo_1b_ab_apply, shapeCast_self,
      broadcastTo_1b_ab_apply, shapeCast_a_1a_apply, shapeCast_col_apply]
    simp only [truncf_apply, shapeCast_1ab_ab_apply]
    rw [Ideal.ofBits_def, Ideal.ofBits_zero_f32]
  · rw [shapeCast_self]
    exact congrArg x4 (eq_ix2_of_val rfl rfl)

theorem hz3 : (![0, 0, 0] : Fin 3 → Nat) = fun _ => 0 := funext fun a => by fin_cases a <;> rfl

theorem idx_facts4 : ∀ t : Fin cfg4.N,
    win4_0.index t (0 : Fin 3) = t.val ∧ win4_0.index t (1 : Fin 3) = 0 ∧ win4_0.index t (2 : Fin 3) = 0
    ∧ (∀ a, win4_1.index t a = 0) ∧ (∀ a, win4_2.index t a = 0) ∧ (∀ a, win4_3.index t a = 0) ∧ (∀ a, win4_4.index t a = 0)
    ∧ win4_5.index t (0 : Fin 3) = t.val ∧ win4_5.index t (1 : Fin 3) = 0 ∧ win4_5.index t (2 : Fin 3) = 0 :=
  (by decide +kernel : ∀ t : Fin grid4.N, _)

variable (V : (c : Dev nD) → (b : Ref sig .tc) → Buf (Elt Ideal) ((c : Thread nD τ).loc b))

/-- Point t reads slab t of the features and the other four operands whole, and the stored row r is the head's projection at (t, 0, r). -/
theorem flushed4_eq (c : Dev nD) (t : Fin cfg4.N) :
    (dat4 (F := Ideal) V c).flushed 5 t = ((cfg4.win 5).blk t).view.read (Elt Ideal)
      (Cert.Spec.mlpHead (V c main_v42) (V c main_arg18) (V c main_v43) (V c main_arg20) (V c main_v44)) := by
  obtain ⟨a0, a1, a2, b, c', d, f, g0, g1, g2⟩ := idx_facts4 t
  show (cfg4.win 5).cut (grid4.coords t) ((dat4 (F := Ideal) V c).after 5 t) = _
  rw [after4_5]
  unfold out4_5
  rw [View.canon_unit_zero hz3, View.ld_unit_zero hz3, View.ld_unit_zero zeroOrigin, View.ld_unit_zero zeroOrigin,
    View.ld_unit_zero zeroOrigin, View.ld_unit_zero zeroOrigin]
  funext j
  obtain ⟨u, v, r, rfl⟩ : ∃ (u v : Fin 1) (r : Fin 256), j = ix3 u v r := ⟨j 0, j 1, j 2, eq_ix3 j⟩
  have ht : t.val < 8 := Nat.lt_of_lt_of_eq t.isLt N_4
  show k4_pay1 (F := Ideal) _ _ _ _ _ (ix3 u v r) = Cert.Spec.mlpHead _ _ _ _ _ (((cfg4.win 5).blk t).view.emb (ix3 u v r))
  rw [show ((cfg4.win 5).blk t).view.emb (ix3 u v r) = ix3 ⟨_, ht⟩ v r from eq_ix3_of_val
    (show win4_5.index t (0 : Fin 3) * 1 + 1 * u.val = t.val by rw [g0]; omega)
    (show win4_5.index t (1 : Fin 3) * _ + 1 * v.val = v.val by rw [g1]; omega)
    (show win4_5.index t (2 : Fin 3) * _ + 1 * r.val = r.val by rw [g2]; omega), pay4_apply]
  unfold Cert.Spec.mlpHead
  have h0 : ∀ m, iblk4 V c 0 t (ix3 (0 : Fin 1) r m) = V c main_v42 (ix3 ⟨_, ht⟩ r m) := fun m => congrArg (V c main_v42) (eq_ix3_of_val
    (show win4_0.index t (0 : Fin 3) * 1 + 1 * 0 = t.val by rw [a0]; omega)
    (show win4_0.index t (1 : Fin 3) * _ + 1 * r.val = r.val by rw [a1]; omega)
    (show win4_0.index t (2 : Fin 3) * _ + 1 * m.val = m.val by rw [a2]; omega))
  have h1 : iblk4 V c 1 t = V c main_arg18 := funext fun y => congrArg (V c main_arg18) (funext fun a =>
    Fin.ext (win4_1.rect_emb_val_of_index_zero t a (b a) y))
  have h2 : iblk4 V c 2 t = V c main_v43 := funext fun y => congrArg (V c main_v43) (funext fun a =>
    Fin.ext (win4_2.rect_emb_val_of_index_zero t a (c' a) y))
  have h3 : iblk4 V c 3 t = V c main_arg20 := funext fun y => congrArg (V c main_arg20) (funext fun a =>
    Fin.ext (win4_3.rect_emb_val_of_index_zero t a (d a) y))
  have h4 : iblk4 V c 4 t = V c main_v44 := funext fun y => congrArg (V c main_v44) (funext fun a =>
    Fin.ext (win4_4.rect_emb_val_of_index_zero t a (f a) y))
  simp only [h0, h1, h2, h3, h4]

/-- The eight slabs fill the result: an entry lies in the block of the point numbered by its first coordinate. -/
theorem cover4 (i : S8x1x256.Idx) :
    ∃ t : Fin cfg4.N, (cfg4.win 5).flush t = true ∧ i ∈ ((cfg4.win 5).blk t).view.set := by
  have h0 : (i 0).val < 8 := (i 0).isLt
  have h1 : (i 1).val < 1 := (i 1).isLt
  have h2 : (i 2).val < 256 := (i 2).isLt
  obtain ⟨t, ht⟩ : ∃ t : Fin cfg4.N, t.val = (i 0).val := ⟨⟨(i 0).val, by rw [show cfg4.N = 8 from N_4]; exact h0⟩, rfl⟩
  obtain ⟨-, -, -, -, -, -, -, g0, g1, g2⟩ := idx_facts4 t
  refine ⟨t, flush4_5 t, ?_⟩
  show i ∈ ((View.whole main_v45).slice (win4_5.rect t)).set
  rw [View.set_slice_whole, Rect.mem_set_unit]
  intro a
  match a with
  | ⟨0, _⟩ => show win4_5.index t (0 : Fin 3) * 1 ≤ (i 0).val ∧ (i 0).val < win4_5.index t (0 : Fin 3) * 1 + 1; omega
  | ⟨1, _⟩ => show win4_5.index t (1 : Fin 3) * 1 ≤ (i 1).val ∧ (i 1).val < win4_5.index t (1 : Fin 3) * 1 + 1; omega
  | ⟨2, _⟩ => show win4_5.index t (2 : Fin 3) * 256 ≤ (i 2).val ∧ (i 2).val < win4_5.index t (2 : Fin 3) * 256 + 256; omega

theorem arr4 (c : Dev nD) :
    (dat4 (F := Ideal) V c).arrAt 5 cfg4.N
      = Cert.Spec.mlpHead (V c main_v42) (V c main_arg18) (V c main_v43) (V c main_arg20) (V c main_v44) :=
  (dat4 (F := Ideal) V c).arrAt_eq_of_cover 5 _ (fun t _ => flushed4_eq V c t) cover4

end Cert.KernelIdeal.Hand

end
-- ==== Proof.RefIdx.lean ====
import proofs.«408721_j11879879540745_1_alg».proof.Proof.RefStages
import proofs.«408721_j11879879540745_1_alg».proof.Proof.Spec
import proofs.«408721_j11879879540745_1_alg».proof.Proof.KI.SageLib
import Idealize.ShloMosaic.Lib.KernelVsHost
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx
open scoped BigOperators

/-- A vector of 256 spread down the 65536 rows reads, at (p, q), the vector's entry q. -/
theorem bias2_apply (b : FVec Ideal S256 .f32) (p : Fin 65536) (q : Fin 256) :
    (broadcastInDim S65536x256 ![0, 1] bcast_S1x256_S65536x256_0_1
      (broadcastInDim S1x256 ![1] bcast_S256_S1x256_1 b : FVec Ideal S1x256 .f32) : FVec Ideal S65536x256 .f32) (ix2 p q) = b (ix1 q) := by
  unfold broadcastInDim
  exact congrArg b (funext fun a => match a with | ⟨0, _⟩ => rfl)

theorem zero_apply {T : Shape} (h : S_.BroadcastsInDim T ![]) (j : T.Idx) :
    (broadcastInDim T ![] h (constant (F := Ideal) S_ .f32 0x00000000#32) : FVec Ideal T .f32) j = 0 := by
  rw [broadcastInDim_scalar_apply, constant_apply, Ideal.ofBits_zero_f32]

theorem bias3_apply (b : FVec Ideal S256 .f32) (g : Fin 8) (r : Fin 256) (k : Fin 256) :
    (broadcastInDim S8x256x256 ![0, 1, 2] bcast_S1x1x256_S8x256x256_0_1_2
      (broadcastInDim S1x1x256 ![2] bcast_S256_S1x1x256_2 b : FVec Ideal S1x1x256 .f32) : FVec Ideal S8x256x256 .f32) (ix3 g r k) = b (ix1 k) := by
  unfold broadcastInDim
  exact congrArg b (funext fun a => match a with | ⟨0, _⟩ => rfl)

theorem bias1_apply (b : FVec Ideal S1 .f32) (g : Fin 8) (r : Fin 256) :
    (broadcastInDim S8x256x1 ![0, 1, 2] bcast_S1x1x1_S8x256x1_0_1_2
      (broadcastInDim S1x1x1 ![2] bcast_S1_S1x1x1_2 b : FVec Ideal S1x1x1 .f32) : FVec Ideal S8x256x1 .f32) (ix3 g r (0 : Fin 1)) = b (ix1 (0 : Fin 1)) := by
  unfold broadcastInDim
  exact congrArg b (funext fun a => match a with | ⟨0, _⟩ => rfl)

theorem squeeze_apply (Y : FVec Ideal S8x256x1 .f32) (g : Fin 8) (r : Fin 256) :
    (shapeCast S8x256 Y shapeCasts_S8x256x1_S8x256 : FVec Ideal S8x256 .f32) (ix2 g r) = Y (ix3 g r (0 : Fin 1)) := by
  refine shapeCast_apply Y shapeCasts_S8x256x1_S8x256 (ix2 g r) (ix3 g r (0 : Fin 1)) ?_
  rw [Shape.rowMajor_val_three, Shape.rowMajor_val_two]
  show (g.val * 256 + r.val) * 1 + 0 = g.val * 256 + r.val
  omega

theorem rDense128_eq (A H : FVec Ideal S65536x128 .f32) (Wl Wr : FVec Ideal S128x256 .f32) (b : FVec Ideal S256 .f32)
    (brow : FVec Ideal S1x256 .f32) (hb : ∀ j : Fin 256, brow (ix2 (0 : Fin 1) j) = b (ix1 j)) :
    rDense128 (F := Ideal) A H Wl Wr b = Cert.Spec.sage128 A H Wl Wr brow := by
  funext i
  obtain ⟨p, q, rfl⟩ : ∃ (p : Fin 65536) (q : Fin 256), i = ix2 p q := ⟨i 0, i 1, eq_ix2 i⟩
  unfold rDense128 Cert.Spec.sage128
  rw [maximumf_apply, addf_apply, addf_apply, plainDot _ (by rfl), plainDot _ (by rfl), bias2_apply, zero_apply, hb]

theorem rDense256_eq (A H : FVec Ideal S65536x256 .f32) (Wl Wr : FVec Ideal S256x256 .f32) (b : FVec Ideal S256 .f32)
    (brow : FVec Ideal S1x256 .f32) (hb : ∀ j : Fin 256, brow (ix2 (0 : Fin 1) j) = b (ix1 j)) :
    rDense256 (F := Ideal) A H Wl Wr b = Cert.Spec.sage256 A H Wl Wr brow := by
  funext i
  obtain ⟨p, q, rfl⟩ : ∃ (p : Fin 65536) (q : Fin 256), i = ix2 p q := ⟨i 0, i 1, eq_ix2 i⟩
  unfold rDense256 Cert.Spec.sage256
  rw [maximumf_apply, addf_apply, addf_apply, plainDot _ (by rfl), plainDot _ (by rfl), bias2_apply, zero_apply, hb]

theorem rMlp1_eq (H : FVec Ideal S65536x256 .f32) (W1 : FVec Ideal S8192x256 .f32) (b1 : FVec Ideal S256 .f32)
    (W2 : FVec Ideal S256x1 .f32) (b2 : FVec Ideal S1 .f32) (X : FVec Ideal S8x256x8192 .f32)
    (hX : X = shapeCast S8x256x8192 H shapeCasts_S65536x256_S8x256x8192)
    (b1row : FVec Ideal S1x256 .f32) (hb1 : ∀ k : Fin 256, b1row (ix2 (0 : Fin 1) k) = b1 (ix1 k))
    (b2c : FVec Ideal (⟨2, ![1, 1]⟩ : Shape) .f32) (hb2 : b2c (ix2 (0 : Fin 1) (0 : Fin 1)) = b2 (ix1 (0 : Fin 1)))
    (g : Fin 8) (r : Fin 256) :
    rMlp1 (F := Ideal) H W1 b1 W2 b2 (ix2 g r) = Cert.Spec.mlpHead X W1 b1row W2 b2c (ix3 g (0 : Fin 1) r) := by
  unfold rMlp1 Cert.Spec.mlpHead
  rw [← hX, squeeze_apply, addf_apply, stackDot _ (by rfl), bias1_apply, hb2]
  refine congrArg₂ (· + ·) (Finset.sum_congr rfl fun k _ => ?_) rfl
  rw [maximumf_apply, addf_apply, stackDot _ (by rfl), bias3_apply, zero_apply, hb1]

end Cert.ReferenceIdeal.Hand

end
-- ==== Proof.RefCnt.lean ====
import proofs.«408721_j11879879540745_1_alg».proof.Proof.RefStages
import Idealize.ShloMosaic.Lib.IdealHost
import Mathlib.Data.EReal.Basic
import Mathlib.Algebra.BigOperators.Group.Finset.Basic
import Mathlib.Algebra.Ring.Defs
import Mathlib.Order.MinMax

noncomputable section

namespace Cert.ReferenceIdeal.Hand

open Cert.ReferenceIdeal Cert.ReferenceIdeal.Gen Idealize.ShloMosaic Idealize.SL.Sem

/-- A per-node value spread along the rows of a 65536 x K array reads, at any entry, the value of the entry's node. -/
theorem bcast_cnt_apply {α : Type} {K : ℕ} (h : (⟨2, ![65536, 1]⟩ : Shape).BroadcastsInDim ⟨2, ![65536, K]⟩ (![0, 1] : Fin 2 → Fin 2))
    (h' : (⟨1, ![65536]⟩ : Shape).BroadcastsInDim ⟨2, ![65536, 1]⟩ (![0] : Fin 1 → Fin 2))
    (cnt : (⟨1, ![65536]⟩ : Shape).Idx → α) (i : (⟨2, ![65536, K]⟩ : Shape).Idx) :
    broadcastInDim ⟨2, ![65536, K]⟩ ![0, 1] h (broadcastInDim ⟨2, ![65536, 1]⟩ ![0] h' cnt) i = cnt (ValueIdx.ix1 (i 0)) := by
  unfold broadcastInDim
  exact congrArg cnt (funext fun a => match a with | ⟨0, _⟩ => rfl)

theorem max_sum_ones_real {ι : Type} (s : Finset ι) :
    ∃ y : ℝ, 1 ≤ y ∧ max ((0 : EReal) + ∑ _j ∈ s, (1 : EReal)) 1 = (y : EReal) := by
  refine ⟨max (s.card : ℝ) 1, le_max_right _ _, ?_⟩
  rw [zero_add, Finset.sum_const, EReal.coe_strictMono.monotone.map_max, EReal.coe_one]
  congr 1
  rw [← EReal.coe_one, ← EReal.coe_nsmul, nsmul_eq_mul, mul_one]

/-- A node's count is a sum of ones over some set of edges, raised to at least one: a real number, at least one. -/
theorem rCnt_real (dst : (⟨S524288, .i32⟩ : BufTy).Contents (Elt Ideal)) (i : S65536.Idx) :
    ∃ y : ℝ, 1 ≤ y ∧ rCnt (F := Ideal) dst i = (y : EReal) := by
  obtain ⟨s, hs⟩ : ∃ s : Finset S524288.Idx, rCnt (F := Ideal) dst i
      = max (Ideal.ofBits .f32 0x00000000#32 + ∑ _j ∈ s, Ideal.ofBits .f32 0x3F800000#32) (Ideal.ofBits .f32 0x3F800000#32) := ⟨_, rfl⟩
  rw [hs, Ideal.ofBits_zero_f32, Ideal.ofBits_one_f32]
  exact max_sum_ones_real s

theorem div_eq_mul_one_div (s c : EReal) (y : ℝ) (hy : 1 ≤ y) (hc : c = (y : EReal)) :
    Ideal.div s c = s * Ideal.div 1 c :=
  (Ideal.mul_one_div (hc ▸ EReal.coe_ne_zero.mpr (ne_of_gt (lt_of_lt_of_le one_pos hy)))).symm

end Cert.ReferenceIdeal.Hand

end
-- ==== Proof.LibAllOnes.lean ====
import Idealize.ShloMosaic.Lib.ReduceAll

namespace Cert.LibAllOnes

open Idealize.ShloMosaic

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_ones f l (fun n hn => h n (List.mem_cons_of_mem _ hn))

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ (fun n _ => hx n)

end Cert.LibAllOnes
-- ==== Proof.LibWord.lean ====
import Idealize.ShloMosaic.Lib.Affine

namespace Cert.LibWord

open Idealize.ShloMosaic

theorem wrap_keep (x y : BitVec 32) (h0 : 0 ≤ x.toInt) : Scalar.select (IntOp.cmpi .slt x 0#32) y x = x := by
  have hz : (0#32 : BitVec 32).toInt = 0 := by decide
  have hne : ¬ IntOp.cmpi .slt x 0#32 = 1 := fun h => by
    have h' := IntOp.cmpi_slt.1 h
    rw [hz] at h'
    omega
  unfold Scalar.select
  rw [if_neg hne]

theorem in_range (x : BitVec 32) (h0 : 0 ≤ x.toInt) (h1 : x.toInt < 65536) :
    IntOp.andi (IntOp.cmpi .sge x 0#32) (IntOp.cmpi .sle x 65535#32) = 1#1 := by
  have hz : (0#32 : BitVec 32).toInt = 0 := by decide
  have hm : (65535#32 : BitVec 32).toInt = 65535 := by decide
  rw [IntOp.andi_eq_one]
  exact ⟨IntOp.cmpi_sge.2 (by rw [hz]; exact h0), IntOp.cmpi_sle.2 (by rw [hm]; omega)⟩

end Cert.LibWord
-- ==== Proof.AggBridge.lean ====
import proofs.«408721_j11879879540745_1_alg».proof.Proof.KI.HostRead
import proofs.«408721_j11879879540745_1_alg».proof.Proof.RefCnt
import proofs.«408721_j11879879540745_1_alg».proof.Proof.LibAllOnes
import proofs.«408721_j11879879540745_1_alg».proof.Proof.LibWord
import Idealize.ShloMosaic.Lib.ValueIdx
import Idealize.ShloMosaic.Lib.IdealHost

noncomputable section

namespace Cert.Bridge

open Cert.KernelIdeal.Hand Cert.ReferenceIdeal.Hand Idealize.ShloMosaic Idealize.ShloMosaic.ValueIdx

theorem wrapped_eq (src : IVec Cert.KernelIdeal.S524288 32)
    (hsrc : ∀ e : Cert.KernelIdeal.S524288.Idx, 0 ≤ (src e).toInt ∧ (src e).toInt < 65536) :
    (select (cmpi .slt src (broadcastInDim Cert.KernelIdeal.S524288 ![] Cert.KernelIdeal.Gen.bcast_S_S524288 (constantI Cert.KernelIdeal.S_ 32 0#32)))
      (addi src (broadcastInDim Cert.KernelIdeal.S524288 ![] Cert.KernelIdeal.Gen.bcast_S_S524288 (constantI Cert.KernelIdeal.S_ 32 65536#32))) src
      : IVec Cert.KernelIdeal.S524288 32) = src :=
  funext fun e => Cert.LibWord.wrap_keep (src e) _ (hsrc e).1

theorem kWrap_range (src : IVec Cert.KernelIdeal.S524288 32)
    (hsrc : ∀ e : Cert.KernelIdeal.S524288.Idx, 0 ≤ (src e).toInt ∧ (src e).toInt < 65536)
    (i : Cert.KernelIdeal.S524288x1.Idx) : 0 ≤ (kWrap src i).toInt ∧ (kWrap src i).toInt < 65536 := by
  unfold kWrap
  rw [wrapped_eq src hsrc]
  unfold broadcastInDim
  exact hsrc _

theorem kInRange_wrap (src : IVec Cert.KernelIdeal.S524288 32)
    (hsrc : ∀ e : Cert.KernelIdeal.S524288.Idx, 0 ≤ (src e).toInt ∧ (src e).toInt < 65536)
    (e : Cert.KernelIdeal.S524288.Idx) : kInRange (kWrap src) e = 1#1 := by
  unfold kInRange
  refine Cert.LibAllOnes.reduce_andi_of_all _ _ _ _ e rfl (fun i => ?_)
  obtain ⟨h0, h1⟩ := kWrap_range src hsrc i
  exact Cert.LibWord.in_range (kWrap src i) h0 h1

/-- With every source index in range the guard is all ones, so the guarded rows are the gathered rows, at either width. -/
theorem take_eq {K : ℕ} {α : Type} (h : Cert.KernelIdeal.S524288.BroadcastsInDim ⟨2, ![524288, K]⟩ (![0] : Fin 1 → Fin 2))
    (src : IVec Cert.KernelIdeal.S524288 32)
    (hsrc : ∀ e : Cert.KernelIdeal.S524288.Idx, 0 ≤ (src e).toInt ∧ (src e).toInt < 65536)
    (a b : (⟨2, ![524288, K]⟩ : Shape).Idx → α) :
    select (broadcastInDim ⟨2, ![524288, K]⟩ ![0] h (kInRange (kWrap src))) a b = a :=
  funext fun i => by
    rw [select_apply, show broadcastInDim _ ![0] h (kInRange (kWrap src)) i = 1#1 from kInRange_wrap src hsrc _, select_one]

/-- The reciprocal count spread along the rows reads, at any entry, one over the count of the entry's node. -/
theorem kInv_apply {K : ℕ} (h : Cert.KernelIdeal.S65536x1.BroadcastsInDim ⟨2, ![65536, K]⟩ (![0, 1] : Fin 2 → Fin 2))
    (dst : IVec Cert.KernelIdeal.S524288 32) (i : (⟨2, ![65536, K]⟩ : Shape).Idx) :
    broadcastInDim ⟨2, ![65536, K]⟩ ![0, 1] h (kInv (F := Ideal) dst) i = Ideal.div 1 (rCnt (F := Ideal) dst (ix1 (i 0))) := by
  unfold kInv
  refine (bcast_cnt_apply h _ _ i).trans ?_
  rw [hostDivf_apply]
  show Ideal.div (Ideal.ofBits .f32 0x3F800000#32) (rCnt (F := Ideal) dst (ix1 (i 0))) = _
  rw [Ideal.ofBits_one_f32]

/-- Scaling by the reciprocal of a real count that is at least one is dividing by the count. -/
theorem scale_eq_div {s : Shape} (S inv cnt : FVec Ideal s .f32) (i : s.Idx) (c : EReal) (y : ℝ) (hy : 1 ≤ y) (hc : c = y)
    (hinv : inv i = Ideal.div 1 c) (hcnt : cnt i = c) : mulf S inv i = Host.divf S cnt i := by
  rw [mulf_apply, hostDivf_apply, hinv, hcnt]
  exact (div_eq_mul_one_div _ _ y hy hc).symm

theorem kAgg128_eq (H : FVec Ideal Cert.KernelIdeal.S65536x128 .f32) (src dst : IVec Cert.KernelIdeal.S524288 32)
    (hsrc : ∀ e : Cert.KernelIdeal.S524288.Idx, 0 ≤ (src e).toInt ∧ (src e).toInt < 65536) :
    kAgg128 (F := Ideal) H (kInv dst) src dst = rAgg128 (F := Ideal) H (rCnt dst) src dst := by
  funext i
  obtain ⟨y, hy, hc⟩ := rCnt_real dst (ix1 (i 0))
  unfold kAgg128 kScale128 kTake128 rAgg128
  rw [take_eq _ src hsrc]
  exact scale_eq_div _ _ _ i _ y hy hc (kInv_apply _ dst i) (bcast_cnt_apply _ _ _ i)

theorem kAgg256_eq (H : FVec Ideal Cert.KernelIdeal.S65536x256 .f32) (src dst : IVec Cert.KernelIdeal.S524288 32)
    (hsrc : ∀ e : Cert.KernelIdeal.S524288.Idx, 0 ≤ (src e).toInt ∧ (src e).toInt < 65536) :
    kAgg256 (F := Ideal) H (kInv dst) src dst = rAgg256 (F := Ideal) H (rCnt dst) src dst := by
  funext i
  obtain ⟨y, hy, hc⟩ := rCnt_real dst (ix1 (i 0))
  unfold kAgg256 kScale256 kTake256 rAgg256
  rw [take_eq _ src hsrc]
  exact scale_eq_div _ _ _ i _ y hy hc (kInv_apply _ dst i) (bcast_cnt_apply _ _ _ i)

end Cert.Bridge

end
-- ==== Proof.Bridge.lean ====
import proofs.«408721_j11879879540745_1_alg».proof.Proof.KI.Run
import proofs.«408721_j11879879540745_1_alg».proof.Proof.KI.HostRead
import proofs.«408721_j11879879540745_1_alg».proof.Proof.KI.CastIdx
import proofs.«408721_j11879879540745_1_alg».proof.Proof.KI.ValSage0
import proofs.«408721_j11879879540745_1_alg».proof.Proof.KI.ValSage1
import proofs.«408721_j11879879540745_1_alg».proof.Proof.KI.ValSage2
import proofs.«408721_j11879879540745_1_alg».proof.Proof.KI.ValSage3
import proofs.«408721_j11879879540745_1_alg».proof.Proof.KI.ValMlp
import proofs.«408721_j11879879540745_1_alg».proof.Proof.RefRead
import proofs.«408721_j11879879540745_1_alg».proof.Proof.RefIdx
import proofs.«408721_j11879879540745_1_alg».proof.Proof.RefCnt
import proofs.«408721_j11879879540745_1_alg».proof.Proof.AggBridge
import proofs.«408721_j11879879540745_1_alg».proof.Proof.PreRange

noncomputable section

namespace Cert.Bridge

open Idealize.ShloMosaic Idealize.ShloMosaic.TcCoe Idealize.SL.Sem Idealize.ShloMosaic.ValueIdx
open Cert.KernelIdeal Cert.KernelIdeal.Gen Cert.KernelIdeal.Hand

open Cert.ReferenceIdeal.Hand (rConcat rCnt rLayer128 rLayer256 rMlp1 rTail rResult rDense128_eq rDense256_eq rMlp1_eq)

variable (m : (ℓ : Loc nD τ sig) → Buf (Elt Ideal) ℓ) (c : Dev nD)
variable (hsrc : ∀ e : S524288.Idx, 0 ≤ (m ((c : Thread nD τ).loc main_arg4) e).toInt
  ∧ (m ((c : Thread nD τ).loc main_arg4) e).toInt < 65536)
include hsrc

theorem layer0 : outs m 4 main_v17 c
    = rLayer128 (rConcat (m ((c : Thread nD τ).loc main_arg0)) (m ((c : Thread nD τ).loc main_arg1)) (m ((c : Thread nD τ).loc main_arg2)) (m ((c : Thread nD τ).loc main_arg3))) (rCnt (m ((c : Thread nD τ).loc main_arg5))) (m ((c : Thread nD τ).loc main_arg4)) (m ((c : Thread nD τ).loc main_arg5)) (m ((c : Thread nD τ).loc main_arg6)) (m ((c : Thread nD τ).loc main_arg7)) (m ((c : Thread nD τ).loc main_arg8)) := by
  have h := arr0 (fun c b => V3 m c b) c
  beta_reduce at h
  rw [V3_v15, V3_v0, V3_arg6, V3_arg7, V3_v16] at h
  rw [outs_4, h]
  unfold rLayer128
  rw [rDense128_eq _ _ _ _ _ (kBias (m ((c : Thread nD τ).loc main_arg8))) (kBias_apply _), ← kAgg128_eq _ _ _ hsrc]
  rfl

theorem layer1 : outs m 7 main_v25 c
    = rLayer256 (outs m 4 main_v17 c) (rCnt (m ((c : Thread nD τ).loc main_arg5))) (m ((c : Thread nD τ).loc main_arg4)) (m ((c : Thread nD τ).loc main_arg5)) (m ((c : Thread nD τ).loc main_arg9)) (m ((c : Thread nD τ).loc main_arg10)) (m ((c : Thread nD τ).loc main_arg11)) := by
  have h := arr1 (fun c b => V6 m (outs m) c b) c
  beta_reduce at h
  rw [V6_v23, V6_v17, V6_arg9, V6_arg10, V6_v24] at h
  rw [outs_7, h]
  unfold rLayer256
  rw [rDense256_eq _ _ _ _ _ (kBias (m ((c : Thread nD τ).loc main_arg11))) (kBias_apply _), ← kAgg256_eq _ _ _ hsrc]

theorem layer2 : outs m 10 main_v33 c
    = rLayer256 (outs m 7 main_v25 c) (rCnt (m ((c : Thread nD τ).loc main_arg5))) (m ((c : Thread nD τ).loc main_arg4)) (m ((c : Thread nD τ).loc main_arg5)) (m ((c : Thread nD τ).loc main_arg12)) (m ((c : Thread nD τ).loc main_arg13)) (m ((c : Thread nD τ).loc main_arg14)) := by
  have h := arr2 (fun c b => V9 m (outs m) c b) c
  beta_reduce at h
  rw [V9_v31, V9_v25, V9_arg12, V9_arg13, V9_v32] at h
  rw [outs_10, h]
  unfold rLayer256
  rw [rDense256_eq _ _ _ _ _ (kBias (m ((c : Thread nD τ).loc main_arg14))) (kBias_apply _), ← kAgg256_eq _ _ _ hsrc]

theorem layer3 : outs m 13 main_v41 c
    = rLayer256 (outs m 10 main_v33 c) (rCnt (m ((c : Thread nD τ).loc main_arg5))) (m ((c : Thread nD τ).loc main_arg4)) (m ((c : Thread nD τ).loc main_arg5)) (m ((c : Thread nD τ).loc main_arg15)) (m ((c : Thread nD τ).loc main_arg16)) (m ((c : Thread nD τ).loc main_arg17)) := by
  have h := arr3 (fun c b => V12 m (outs m) c b) c
  beta_reduce at h
  rw [V12_v39, V12_v33, V12_arg15, V12_arg16, V12_v40] at h
  rw [outs_13, h]
  unfold rLayer256
  rw [rDense256_eq _ _ _ _ _ (kBias (m ((c : Thread nD τ).loc main_arg17))) (kBias_apply _), ← kAgg256_eq _ _ _ hsrc]

omit hsrc in

theorem head_eq : kFlat (F := Ideal) (outs m 15 main_v45 c)
    = (rMlp1 (F := Ideal) (outs m 13 main_v41 c) (m ((c : Thread nD τ).loc main_arg18)) (m ((c : Thread nD τ).loc main_arg19)) (m ((c : Thread nD τ).loc main_arg20)) (m ((c : Thread nD τ).loc main_arg21)) : FVec Ideal S8x256 .f32) := by
  have h := arr4 (fun c b => V14 m (outs m) c b) c
  beta_reduce at h
  rw [V14_v42, V14_arg18, V14_v43, V14_arg20, V14_v44] at h
  funext i
  obtain ⟨g, r, rfl⟩ : ∃ (g : Fin 8) (r : Fin 256), i = ix2 g r := ⟨i 0, i 1, eq_ix2 i⟩
  rw [kFlat_apply, outs_15, h]
  exact (rMlp1_eq _ _ _ _ _ (kTo3d _) rfl (kBias _) (kBias_apply _) (kB2 _) (kB2_apply _) g r).symm

omit hsrc in

theorem tail_eq (O : FVec Ideal S8x1x256 .f32) (gamma beta : FVec Ideal S256 .f32) (W1 : FVec Ideal S256x256 .f32)
    (b1 : FVec Ideal S256 .f32) (W2 : FVec Ideal S256x8 .f32) (b2 : FVec Ideal S8 .f32) :
    kTail (F := Ideal) O gamma beta W1 b1 W2 b2 = rTail (F := Ideal) (kFlat (F := Ideal) O) gamma beta W1 b1 W2 b2 := rfl

theorem value_eq : V22 m (outs m) c main_v75
    = rResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  rw [V22_v75, tail_eq, head_eq m c, layer3 m c hsrc, layer2 m c hsrc, layer1 m c hsrc, layer0 m c hsrc]
  rfl

end Cert.Bridge

end
-- ==== Proof.lean ====
/-
  GraphSAGE on 65536 nodes and 524288 edges (four layers h ← max(mean_nbr(h)·Wl + h·Wr + b, 0)), a per-graph readout,
  batch normalisation over the 8 graphs and two dense layers, against the plain reference, over the extended reals.
  The two differ in the neighbour mean only: a gather that fills rows at out-of-range indices against one that clamps
  (equal on the domain 0 ≤ edge_src < 65536 the statement carries), and a product with 1 / max(deg, 1) against a
  quotient by max(deg, 1) (equal because the clamp is a real number at least one).
-/
import proofs.«408721_j11879879540745_1_alg».proof.Defs
import proofs.«408721_j11879879540745_1_alg».proof.Proof.Gen.Kernel
import proofs.«408721_j11879879540745_1_alg».proof.Proof.Gen.KernelIdeal
import proofs.«408721_j11879879540745_1_alg».proof.Proof.Gen.ReferenceIdeal
import proofs.«408721_j11879879540745_1_alg».proof.Proof.Gen.Pre_finite_inputs
import proofs.«408721_j11879879540745_1_alg».proof.Proof.K.Segs
import proofs.«408721_j11879879540745_1_alg».proof.Proof.KI.Run
import proofs.«408721_j11879879540745_1_alg».proof.Proof.RefRead
import proofs.«408721_j11879879540745_1_alg».proof.Proof.PreRange
import proofs.«408721_j11879879540745_1_alg».proof.Proof.Bridge

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Kernel Cert.Kernel.Gen Cert.Kernel.Hand in
theorem frame_k : Cert.frame_Kernel := fun m ρ _ =>
  frame_cond m emb₁ () Variants.none noPairs noLevel (fun _ _ => rfl) ρ (outs m) (pdats m) 0 (fun _ => iprop(emp)) u₀ launch_own
    (fun _ => rest) (Pipeline.initEach noPairs noLevel fun c => by
      iintro ⟨⟨-, HO, -, Hp, -⟩, -⟩; imodintro
      isplitl [Hp]; · iexists _; iexact Hp
      iexists ∅; iexact HO) rest_owes
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

open Cert.KernelIdeal Cert.KernelIdeal.Gen Cert.KernelIdeal.Hand in
theorem frame_ki : Cert.frame_KernelIdeal := fun m ρ _ =>
  frame_cond m emb₁ () Variants.none noPairs noLevel (fun _ _ => rfl) ρ (outs m) (pdats m) 0 (fun _ => iprop(emp)) u₀ launch_own
    (fun _ => rest) (Pipeline.initEach noPairs noLevel fun c => by
      iintro ⟨⟨-, HO, -, Hp, -⟩, -⟩; imodintro
      isplitl [Hp]; · iexists _; iexact Hp
      iexists ∅; iexact HO) rest_owes
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl)

theorem frame_ri : Cert.frame_ReferenceIdeal := fun m ρ _ =>
  (θ_run Cert.ReferenceIdeal.defs _ _).mono (fun _ h c => (h c).2) (Cert.ReferenceIdeal.Hand.run (F := Ideal) m ρ)

open Cert.KernelIdeal.Gen in
/-- Both idealized programs end with the same 8 x 8 result: the result at the last boundary, read through the five
    regions, is the reference's result function of the arguments. -/
theorem algebraic : Cert.algebraic_KernelIdeal_ReferenceIdeal := by
  intro m ρ m' ρ' hpre hagree
  refine ⟨fun c => V22 m (Cert.KernelIdeal.Hand.outs m) c Cert.KernelIdeal.main_v75,
    (θ_run Cert.KernelIdeal.defs _ _).mono (fun r h c => have k := Cert.KernelIdeal.Hand.kept m h c
      ⟨h c _ (Cert.KernelIdeal.Hand.mem_uc Cert.KernelIdeal.main_v75 (by decide)),
    k _ (by decide) (V22_main_arg0 ..),
    k _ (by decide) (V22_main_arg1 ..),
    k _ (by decide) (V22_main_arg2 ..),
    k _ (by decide) (V22_main_arg3 ..),
    k _ (by decide) (V22_main_arg4 ..),
    k _ (by decide) (V22_main_arg5 ..),
    k _ (by decide) (V22_main_arg6 ..),
    k _ (by decide) (V22_main_arg7 ..),
    k _ (by decide) (V22_main_arg8 ..),
    k _ (by decide) (V22_main_arg9 ..),
    k _ (by decide) (V22_main_arg10 ..),
    k _ (by decide) (V22_main_arg11 ..),
    k _ (by decide) (V22_main_arg12 ..),
    k _ (by decide) (V22_main_arg13 ..),
    k _ (by decide) (V22_main_arg14 ..),
    k _ (by decide) (V22_main_arg15 ..),
    k _ (by decide) (V22_main_arg16 ..),
    k _ (by decide) (V22_main_arg17 ..),
    k _ (by decide) (V22_main_arg18 ..),
    k _ (by decide) (V22_main_arg19 ..),
    k _ (by decide) (V22_main_arg20 ..),
    k _ (by decide) (V22_main_arg21 ..),
    k _ (by decide) (V22_main_arg22 ..),
    k _ (by decide) (V22_main_arg23 ..),
    k _ (by decide) (V22_main_arg24 ..),
    k _ (by decide) (V22_main_arg25 ..),
    k _ (by decide) (V22_main_arg26 ..),
    k _ (by decide) (V22_main_arg27 ..)⟩) (Cert.KernelIdeal.Hand.run_all m ρ), ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13, e14, e15, e16, e17, e18, e19, e20, e21, e22, e23, e24, e25, e26, e27⟩ := hagree c
  rw [e0, e1, e2, e3, e4, e5, e6, e7, e8, e9, e10, e11, e12, e13, e14, e15, e16, e17, e18, e19, e20, e21, e22, e23, e24, e25, e26, e27]
  exact (Cert.Bridge.value_eq m c (fun e => Cert.PreRange.src_in_range m hpre c e)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
